-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S16384x16384 : Shape := ⟨2, ![16384, 16384]⟩
abbrev S32x32 : Shape := ⟨2, ![32, 32]⟩
abbrev S32 : Shape := ⟨1, ![32]⟩
abbrev S96x32 : Shape := ⟨2, ![96, 32]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S96x32 : S_.BroadcastsInDim S96x32 (![] : Fin 0 → Fin S96x32.rank)
  reducesTo_S96x32_S_d0_1 : S96x32.ReducesTo [0, 1] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S32x32 .f32) (main_arg5 : FVec F S32 .f32) (main_arg6 : FVec F S96x32 .f32) (main_arg7 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S96x32 .f32 := Host.absf main_arg6
  let main_cst_10 : FVec F S_ .f32 := constant S_ .f32 0x7F800000#32
  let main_v30 : FVec F S96x32 .f32 := broadcastInDim S96x32 ![] bcast_S_S96x32 main_cst_10
  let main_v31 : IVec S96x32 1 := cmpf .olt main_v29 main_v30
  let main_c_11 : IVec S_ 1 := constantI S_ 1 1#1
  let main_v32 : IVec S_ 1 := (fun x v => Host.reduce IntOp.andi x v reducesTo_S96x32_S_d0_1 h_S_) main_v31 main_c_11
  let main_v33 : IVec S_ 1 := andi main_v28 main_v32
  fn_part2 (F := F) main_arg7 main_v33

def fn {F : FTy → Type} [FloatOps F] (main_arg0 : FVec F S16384x32 .f32) (main_arg1 : FVec F S16384x16384 .f32) (main_arg2 : FVec F S32x32 .f32) (main_arg3 : FVec F S32 .f32) (main_arg4 : FVec F S32x32 .f32) (main_arg5 : FVec F S32 .f32) (main_arg6 : FVec F S96x32 .f32) (main_arg7 : FVec F S32 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S16384x32 : Shape := ⟨2, ![16384, 32]⟩
abbrev S16384x16384 : Shape := ⟨2, ![16384, 16384]⟩
abbrev S32x32 : Shape := ⟨2, ![32, 32]⟩
abbrev S32 : Shape := ⟨1, ![32]⟩
abbrev S96x32 : Shape := ⟨2, ![96, 32]⟩
abbrev S1024x2048 : Shape := ⟨2, ![1024, 2048]⟩
abbrev S512x16384 : Shape := ⟨2, ![512, 16384]⟩
abbrev S512x32 : Shape := ⟨2, ![512, 32]⟩
abbrev S_ : Shape := ⟨0, ![]⟩
abbrev S1x32 : Shape := ⟨2, ![1, 32]⟩
abbrev S16384x96 : Shape := ⟨2, ![16384, 96]⟩

abbrev nBuf : Space → Nat
  | .hbm => 135
  | .vmem => 44
  | .smem => 0
  | _ => 0

abbrev hbmTy0_0 (i : Nat) : BufTy := match i % 128 with
  | 0 => ⟨S16384x32, .f32⟩
  | 1 => ⟨S16384x16384, .f32⟩
  | 2 => ⟨S32x32, .f32⟩
  | 3 => ⟨S32, .f32⟩
  | 4 => ⟨S32x32, .f32⟩
  | 5 => ⟨S32, .f32⟩
  | 6 => ⟨S96x32, .f32⟩
  | 7 => ⟨S32, .f32⟩
  | 8 => ⟨S16384x16384, .bf16⟩
  | 9 => ⟨S16384x32, .f32⟩
  | 10 => ⟨S_, .f32⟩
  | 11 => ⟨S16384x32, .f32⟩
  | 12 => ⟨S16384x32, .f32⟩
  | 13 => ⟨S_, .f32⟩
  | 14 => ⟨S16384x32, .f32⟩
  | 15 => ⟨S16384x32, .f32⟩
  | 16 => ⟨S16384x32, .f32⟩
  | 17 => ⟨S_, .f32⟩
  | 18 => ⟨S16384x32, .f32⟩
  | 19 => ⟨S16384x32, .f32⟩
  | 20 => ⟨S_, .f32⟩
  | 21 => ⟨S16384x32, .f32⟩
  | 22 => ⟨S16384x32, .f32⟩
  | 23 => ⟨S16384x32, .f32⟩
  | 24 => ⟨S16384x32, .f32⟩
  | 25 => ⟨S_, .f32⟩
  | 26 => ⟨S16384x32, .f32⟩
  | 27 => ⟨S16384x32, .f32⟩
  | 28 => ⟨S16384x32, .f32⟩
  | 29 => ⟨S_, .f32⟩
  | 30 => ⟨S16384x32, .f32⟩
  | 31 => ⟨S16384x32, .f32⟩
  | 32 => ⟨S16384x32, .f32⟩
  | 33 => ⟨S_, .f32⟩
  | 34 => ⟨S16384x32, .f32⟩
  | 35 => ⟨S16384x32, .f32⟩
  | 36 => ⟨S16384x32, .f32⟩
  | 37 => ⟨S16384x32, .f32⟩
  | 38 => ⟨S_, .f32⟩
  | 39 => ⟨S16384x32, .f32⟩
  | 40 => ⟨S16384x32, .f32⟩
  | 41 => ⟨S16384x32, .f32⟩
  | 42 => ⟨S_, .f32⟩
  | 43 => ⟨S16384x32, .f32⟩
  | 44 => ⟨S16384x32, .f32⟩
  | 45 => ⟨S16384x32, .f32⟩
  | 46 => ⟨S_, .f32⟩
  | 47 => ⟨S16384x32, .f32⟩
  | 48 => ⟨S16384x32, .f32⟩
  | 49 => ⟨S16384x32, .f32⟩
  | 50 => ⟨S16384x32, .f32⟩
  | 51 => ⟨S_, .f32⟩
  | 52 => ⟨S16384x32, .f32⟩
  | 53 => ⟨S16384x32, .f32⟩
  | 54 => ⟨S16384x32, .f32⟩
  | 55 => ⟨S_, .f32⟩
  | 56 => ⟨S16384x32, .f32⟩
  | 57 => ⟨S16384x32, .f32⟩
  | 58 => ⟨S16384x32, .f32⟩
  | 59 => ⟨S_, .f32⟩
  | 60 => ⟨S16384x32, .f32⟩
  | 61 => ⟨S16384x32, .f32⟩
  | 62 => ⟨S16384x32, .f32⟩
  | 63 => ⟨S16384x32, .f32⟩
  | 64 => ⟨S_, .f32⟩
  | 65 => ⟨S16384x32, .f32⟩
  | 66 => ⟨S16384x32, .f32⟩
  | 67 => ⟨S16384x32, .f32⟩
  | 68 => ⟨S_, .f32⟩
  | 69 => ⟨S16384x32, .f32⟩
  | 70 => ⟨S16384x32, .f32⟩
  | 71 => ⟨S16384x32, .f32⟩
  | 72 => ⟨S_, .f32⟩
  | 73 => ⟨S16384x32, .f32⟩
  | 74 => ⟨S16384x32, .f32⟩
  | 75 => ⟨S16384x32, .f32⟩
  | 76 => ⟨S16384x32, .f32⟩
  | 77 => ⟨S_, .f32⟩
  | 78 => ⟨S16384x32, .f32⟩
  | 79 => ⟨S16384x32, .f32⟩
  | 80 => ⟨S16384x32, .f32⟩
  | 81 => ⟨S_, .f32⟩
  | 82 => ⟨S16384x32, .f32⟩
  | 83 => ⟨S16384x32, .f32⟩
  | 84 => ⟨S16384x32, .f32⟩
  | 85 => ⟨S_, .f32⟩
  | 86 => ⟨S16384x32, .f32⟩
  | 87 => ⟨S16384x32, .f32⟩
  | 88 => ⟨S16384x32, .f32⟩
  | 89 => ⟨S16384x32, .f32⟩
  | 90 => ⟨S_, .f32⟩
  | 91 => ⟨S16384x32, .f32⟩
  | 92 => ⟨S16384x32, .f32⟩
  | 93 => ⟨S16384x32, .f32⟩
  | 94 => ⟨S_, .f32⟩
  | 95 => ⟨S16384x32, .f32⟩
  | 96 => ⟨S16384x32, .f32⟩
  | 97 => ⟨S16384x32, .f32⟩
  | 98 => ⟨S_, .f32⟩
  | 99 => ⟨S16384x32, .f32⟩
  | 100 => ⟨S16384x32, .f32⟩
  | 101 => ⟨S16384x32, .f32⟩
  | 102 => ⟨S16384x32, .f32⟩
  | 103 => ⟨S_, .f32⟩
  | 104 => ⟨S16384x32, .f32⟩
  | 105 => ⟨S16384x32, .f32⟩
  | 106 => ⟨S16384x32, .f32⟩
  | 107 => ⟨S_, .f32⟩
  | 108 => ⟨S16384x32, .f32⟩
  | 109 => ⟨S16384x32, .f32⟩
  | 110 => ⟨S16384x32, .f32⟩
  | 111 => ⟨S_, .f32⟩
  | 112 => ⟨S16384x32, .f32⟩
  | 113 => ⟨S16384x32, .f32⟩
  | 114 => ⟨S16384x32, .f32⟩
  | 115 => ⟨S16384x32, .f32⟩
  | 116 => ⟨S16384x32, .f32⟩
  | 117 => ⟨S1x32, .f32⟩
  | 118 => ⟨S16384x32, .f32⟩
  | 119 => ⟨S16384x32, .f32⟩
  | 120 => ⟨S_, .f32⟩
  | 121 => ⟨S16384x32, .f32⟩
  | 122 => ⟨S16384x32, .f32⟩
  | 123 => ⟨S16384x32, .f32⟩
  | 124 => ⟨S1x32, .f32⟩
  | 125 => ⟨S16384x32, .f32⟩
  | 126 => ⟨S16384x32, .f32⟩
  | 127 => ⟨S_, .f32⟩
  | _ => ⟨S16384x32, .f32⟩

abbrev hbmTy0_1 (i : Nat) : BufTy := match i % 128 with
  | 0 => ⟨S16384x32, .f32⟩
  | 1 => ⟨S16384x32, .f32⟩
  | 2 => ⟨S16384x96, .f32⟩
  | 3 => ⟨S16384x32, .f32⟩
  | 4 => ⟨S1x32, .f32⟩
  | 5 => ⟨S16384x32, .f32⟩
  | 6 => ⟨S16384x32, .f32⟩
  | _ => ⟨S16384x32, .f32⟩

abbrev hbmTy (i : Nat) : BufTy := match i / 128 with
  | 0 => hbmTy0_0 i
  | 1 => hbmTy0_1 i
  | _ => ⟨S16384x32, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S512x16384, .bf16⟩
  | .local _ .vmem, ⟨5, _⟩ => ⟨S512x16384, .bf16⟩
  | .local _ .vmem, ⟨6, _⟩ => ⟨S16384x32, .f32⟩
  | .local _ .vmem, ⟨7, _⟩ => ⟨S512x32, .f32⟩
  | .local _ .vmem, ⟨8, _⟩ => ⟨S512x32, .f32⟩
  | .local _ .vmem, ⟨9, _⟩ => ⟨S512x16384, .bf16⟩
  | .local _ .vmem, ⟨10, _⟩ => ⟨S512x16384, .bf16⟩
  | .local _ .vmem, ⟨11, _⟩ => ⟨S16384x32, .f32⟩
  | .local _ .vmem, ⟨12, _⟩ => ⟨S512x32, .f32⟩
  | .local _ .vmem, ⟨13, _⟩ => ⟨S512x32, .f32⟩
  | .local _ .vmem, ⟨14, _⟩ => ⟨S512x16384, .bf16⟩
  | .local _ .vmem, ⟨15, _⟩ => ⟨S512x16384, .bf16⟩
  | .local _ .vmem, ⟨16, _⟩ => ⟨S16384x32, .f32⟩
  | .local _ .vmem, ⟨17, _⟩ => ⟨S512x32, .f32⟩
  | .local _ .vmem, ⟨18, _⟩ => ⟨S512x32, .f32⟩
  | .local _ .vmem, ⟨19, _⟩ => ⟨S512x16384, .bf16⟩
  | .local _ .vmem, ⟨20, _⟩ => ⟨S512x16384, .bf16⟩
  | .local _ .vmem, ⟨21, _⟩ => ⟨S16384x32, .f32⟩
  | .local _ .vmem, ⟨22, _⟩ => ⟨S512x32, .f32⟩
  | .local _ .vmem, ⟨23, _⟩ => ⟨S512x32, .f32⟩
  | .local _ .vmem, ⟨24, _⟩ => ⟨S512x16384, .bf16⟩
  | .local _ .vmem, ⟨25, _⟩ => ⟨S512x16384, .bf16⟩
  | .local _ .vmem, ⟨26, _⟩ => ⟨S16384x32, .f32⟩
  | .local _ .vmem, ⟨27, _⟩ => ⟨S512x32, .f32⟩
  | .local _ .vmem, ⟨28, _⟩ => ⟨S512x32, .f32⟩
  | .local _ .vmem, ⟨29, _⟩ => ⟨S512x16384, .bf16⟩
  | .local _ .vmem, ⟨30, _⟩ => ⟨S512x16384, .bf16⟩
  | .local _ .vmem, ⟨31, _⟩ => ⟨S16384x32, .f32⟩
  | .local _ .vmem, ⟨32, _⟩ => ⟨S512x32, .f32⟩
  | .local _ .vmem, ⟨33, _⟩ => ⟨S512x32, .f32⟩
  | .local _ .vmem, ⟨34, _⟩ => ⟨S512x16384, .bf16⟩
  | .local _ .vmem, ⟨35, _⟩ => ⟨S512x16384, .bf16⟩
  | .local _ .vmem, ⟨36, _⟩ => ⟨S16384x32, .f32⟩
  | .local _ .vmem, ⟨37, _⟩ => ⟨S512x32, .f32⟩
  | .local _ .vmem, ⟨38, _⟩ => ⟨S512x32, .f32⟩
  | .local _ .vmem, ⟨39, _⟩ => ⟨S512x16384, .bf16⟩
  | .local _ .vmem, ⟨40, _⟩ => ⟨S512x16384, .bf16⟩
  | .local _ .vmem, ⟨41, _⟩ => ⟨S16384x32, .f32⟩
  | .local _ .vmem, ⟨42, _⟩ => ⟨S512x32, .f32⟩
  | .local _ .vmem, ⟨43, _⟩ => ⟨S512x32, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_14 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_17 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_18 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_19 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_20 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_21 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_22 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_23 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call0_cst : Ref sig .tc := ⟨.hbm, 120, rfl⟩
abbrev main_call0_v0 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_call1_cst : Ref sig .tc := ⟨.hbm, 127, rfl⟩
abbrev main_call1_v0 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg2_1 : Ref sig .tc := ⟨.vmem, 18, rfl⟩
abbrev cc4_stg0_0 : Ref sig .tc := ⟨.vmem, 19, rfl⟩
abbrev cc4_stg0_1 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg2_1 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg2_1 : Ref sig .tc := ⟨.vmem, 28, rfl⟩
abbrev cc6_stg0_0 : Ref sig .tc := ⟨.vmem, 29, rfl⟩
abbrev cc6_stg0_1 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg2_1 : Ref sig .tc := ⟨.vmem, 33, rfl⟩
abbrev cc7_stg0_0 : Ref sig .tc := ⟨.vmem, 34, rfl⟩
abbrev cc7_stg0_1 : Ref sig .tc := ⟨.vmem, 35, rfl⟩
abbrev cc7_stg1_0 : Ref sig .tc := ⟨.vmem, 36, rfl⟩
abbrev cc7_stg2_0 : Ref sig .tc := ⟨.vmem, 37, rfl⟩
abbrev cc7_stg2_1 : Ref sig .tc := ⟨.vmem, 38, rfl⟩
abbrev cc8_stg0_0 : Ref sig .tc := ⟨.vmem, 39, rfl⟩
abbrev cc8_stg0_1 : Ref sig .tc := ⟨.vmem, 40, rfl⟩
abbrev cc8_stg1_0 : Ref sig .tc := ⟨.vmem, 41, rfl⟩
abbrev cc8_stg2_0 : Ref sig .tc := ⟨.vmem, 42, rfl⟩
abbrev cc8_stg2_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem2_1 : DmaSem sig := 18
abbrev cc4_sem0_0 : DmaSem sig := 19
abbrev cc4_sem0_1 : DmaSem sig := 20
abbrev cc4_sem1_0 : DmaSem sig := 21
abbrev cc4_sem2_0 : DmaSem sig := 22
abbrev cc4_sem2_1 : DmaSem sig := 23
abbrev cc5_sem0_0 : DmaSem sig := 24
abbrev cc5_sem0_1 : DmaSem sig := 25
abbrev cc5_sem1_0 : DmaSem sig := 26
abbrev cc5_sem2_0 : DmaSem sig := 27
abbrev cc5_sem2_1 : DmaSem sig := 28
abbrev cc6_sem0_0 : DmaSem sig := 29
abbrev cc6_sem0_1 : DmaSem sig := 30
abbrev cc6_sem1_0 : DmaSem sig := 31
abbrev cc6_sem2_0 : DmaSem sig := 32
abbrev cc6_sem2_1 : DmaSem sig := 33
abbrev cc7_sem0_0 : DmaSem sig := 34
abbrev cc7_sem0_1 : DmaSem sig := 35
abbrev cc7_sem1_0 : DmaSem sig := 36
abbrev cc7_sem2_0 : DmaSem sig := 37
abbrev cc7_sem2_1 : DmaSem sig := 38
abbrev cc8_sem0_0 : DmaSem sig := 39
abbrev cc8_sem0_1 : DmaSem sig := 40
abbrev cc8_sem1_0 : DmaSem sig := 41
abbrev cc8_sem2_0 : DmaSem sig := 42
abbrev cc8_sem2_1 : DmaSem sig := 43

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x16384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x16384 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16384x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x16384 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16384x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x16384 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16384x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x16384 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16384x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x16384 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S16384x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![32], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x16384 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S16384x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S512x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![32], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x16384 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S16384x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S512x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  inb_S16384x32_S16384x32_0_0 : ∀ a, (![0, 0] : Fin 2 → Nat) a + S16384x32.size a ≤ S16384x32.size a
  h_S16384x32 : 0 < S16384x32.numel
  inb_S512x16384_S512x16384_0_0 : ∀ a, (![0, 0] : Fin 2 → Nat) a + S512x16384.size a ≤ S512x16384.size a
  h_S512x16384 : 0 < S512x16384.numel
  shapeCasts_S512x16384_S512x16384 : S512x16384.ShapeCasts S512x16384
  inb_S512x32_S512x32_0_0 : ∀ a, (![0, 0] : Fin 2 → Nat) a + S512x32.size a ≤ S512x32.size a
  h_S512x32 : 0 < S512x32.numel
  bcast_S_S16384x32 : S_.BroadcastsInDim S16384x32 (![] : Fin 0 → Fin S16384x32.rank)
  shapeCasts_S16384x32_S16384x32 : S16384x32.ShapeCasts S16384x32
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  concatenates_S16384x32_S16384x32_S16384x32_S16384x96_d1 : Shape.Concatenates [S16384x32, S16384x32, S16384x32] S16384x96 1
  dot_S512x16384_S16384x32_S512x32_1_0_0_1_n_n_wf : DotDims.WF S512x16384 S16384x32 S512x32 [1] [0] [0] [1] [] []
  dot_S16384x32_S32x32_S16384x32_1_0_0_1_n_n_wf : DotDims.WF S16384x32 S32x32 S16384x32 [1] [0] [0] [1] [] []
  dot_S16384x96_S96x32_S16384x32_1_0_0_1_n_n_wf : DotDims.WF S16384x96 S96x32 S16384x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x16384.size a
  hwx0_1 : ∀ i : grid0.Coords, EltTy.bits .bf16 = 32 ∨ (Rect.block (s := S16384x16384) S1024x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x16384.size a ≤ S16384x16384.size a
  hwx1_0 : ∀ i : grid1.Coords, EltTy.bits .bf16 = 32 ∨ (Rect.block (s := S16384x16384) S512x16384.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x32.size a ≤ S16384x32.size a
  hwx1_1 : ∀ i : grid1.Coords, EltTy.bits .f32 = 32 ∨ (Rect.block (s := S16384x32) S16384x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x32.size a ≤ S16384x32.size a
  hwx1_2 : ∀ i : grid1.Coords, EltTy.bits .f32 = 32 ∨ (Rect.block (s := S16384x32) S512x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x16384.size a ≤ S16384x16384.size a
  hwx2_0 : ∀ i : grid2.Coords, EltTy.bits .bf16 = 32 ∨ (Rect.block (s := S16384x16384) S512x16384.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16384x32.size a ≤ S16384x32.size a
  hwx2_1 : ∀ i : grid2.Coords, EltTy.bits .f32 = 32 ∨ (Rect.block (s := S16384x32) S16384x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x32.size a ≤ S16384x32.size a
  hwx2_2 : ∀ i : grid2.Coords, EltTy.bits .f32 = 32 ∨ (Rect.block (s := S16384x32) S512x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x16384.size a ≤ S16384x16384.size a
  hwx3_0 : ∀ i : grid3.Coords, EltTy.bits .bf16 = 32 ∨ (Rect.block (s := S16384x16384) S512x16384.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16384x32.size a ≤ S16384x32.size a
  hwx3_1 : ∀ i : grid3.Coords, EltTy.bits .f32 = 32 ∨ (Rect.block (s := S16384x32) S16384x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x32.size a ≤ S16384x32.size a
  hwx3_2 : ∀ i : grid3.Coords, EltTy.bits .f32 = 32 ∨ (Rect.block (s := S16384x32) S512x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x16384.size a ≤ S16384x16384.size a
  hwx4_0 : ∀ i : grid4.Coords, EltTy.bits .bf16 = 32 ∨ (Rect.block (s := S16384x16384) S512x16384.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16384x32.size a ≤ S16384x32.size a
  hwx4_1 : ∀ i : grid4.Coords, EltTy.bits .f32 = 32 ∨ (Rect.block (s := S16384x32) S16384x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x32.size a ≤ S16384x32.size a
  hwx4_2 : ∀ i : grid4.Coords, EltTy.bits .f32 = 32 ∨ (Rect.block (s := S16384x32) S512x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x16384.size a ≤ S16384x16384.size a
  hwx5_0 : ∀ i : grid5.Coords, EltTy.bits .bf16 = 32 ∨ (Rect.block (s := S16384x16384) S512x16384.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16384x32.size a ≤ S16384x32.size a
  hwx5_1 : ∀ i : grid5.Coords, EltTy.bits .f32 = 32 ∨ (Rect.block (s := S16384x32) S16384x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x32.size a ≤ S16384x32.size a
  hwx5_2 : ∀ i : grid5.Coords, EltTy.bits .f32 = 32 ∨ (Rect.block (s := S16384x32) S512x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x16384.size a ≤ S16384x16384.size a
  hwx6_0 : ∀ i : grid6.Coords, EltTy.bits .bf16 = 32 ∨ (Rect.block (s := S16384x16384) S512x16384.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16384x32.size a ≤ S16384x32.size a
  hwx6_1 : ∀ i : grid6.Coords, EltTy.bits .f32 = 32 ∨ (Rect.block (s := S16384x32) S16384x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x32.size a ≤ S16384x32.size a
  hwx6_2 : ∀ i : grid6.Coords, EltTy.bits .f32 = 32 ∨ (Rect.block (s := S16384x32) S512x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x16384.size a ≤ S16384x16384.size a
  hwx7_0 : ∀ i : grid7.Coords, EltTy.bits .bf16 = 32 ∨ (Rect.block (s := S16384x16384) S512x16384.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S16384x32.size a ≤ S16384x32.size a
  hwx7_1 : ∀ i : grid7.Coords, EltTy.bits .f32 = 32 ∨ (Rect.block (s := S16384x32) S16384x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x32.size a ≤ S16384x32.size a
  hwx7_2 : ∀ i : grid7.Coords, EltTy.bits .f32 = 32 ∨ (Rect.block (s := S16384x32) S512x32.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x16384.size a ≤ S16384x16384.size a
  hwx8_0 : ∀ i : grid8.Coords, EltTy.bits .bf16 = 32 ∨ (Rect.block (s := S16384x16384) S512x16384.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S16384x32.size a ≤ S16384x32.size a
  hwx8_1 : ∀ i : grid8.Coords, EltTy.bits .f32 = 32 ∨ (Rect.block (s := S16384x32) S16384x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S512x32.size a ≤ S16384x32.size a
  hwx8_2 : ∀ i : grid8.Coords, EltTy.bits .f32 = 32 ∨ (Rect.block (s := S16384x32) S512x32.size (cc8_transform_2 i) (hinb8_2 i)).WholeWords (EltTy.packing .f32)

variable [Facts₀]

def dot_S512x16384_S16384x32_S512x32_1_0_0_1_n_n : DotDims S512x16384 S16384x32 S512x32 where
  lhsContracting := [1]
  rhsContracting := [0]
  lhsNonContracting := [0]
  rhsNonContracting := [1]
  lhsBatch := []
  rhsBatch := []
  wf := dot_S512x16384_S16384x32_S512x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x96_S96x32_S16384x32_1_0_0_1_n_n : DotDims S16384x96 S96x32 S16384x32 where
  lhsContracting := [1]
  rhsContracting := [0]
  lhsNonContracting := [0]
  rhsNonContracting := [1]
  lhsBatch := []
  rhsBatch := []
  wf := dot_S16384x96_S96x32_S16384x32_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S16384x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S512x16384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S16384x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S512x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S512x16384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S16384x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22) S512x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v0) S512x16384.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S16384x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v32) S512x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v0) S512x16384.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v35) S16384x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v42) S512x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v0) S512x16384.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v45) S16384x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v52) S512x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v0) S512x16384.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v55) S16384x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v62) S512x32.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v0) S512x16384.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v65) S16384x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v72) S512x32.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S16384x32 : Shape := ⟨2, ![16384, 32]⟩
abbrev S16384x16384 : Shape := ⟨2, ![16384, 16384]⟩
abbrev S32x32 : Shape := ⟨2, ![32, 32]⟩
abbrev S32 : Shape := ⟨1, ![32]⟩
abbrev S96x32 : Shape := ⟨2, ![96, 32]⟩
abbrev S9 : Shape := ⟨1, ![9]⟩
abbrev S1 : Shape := ⟨1, ![1]⟩
abbrev S_ : Shape := ⟨0, ![]⟩
abbrev S1x32 : Shape := ⟨2, ![1, 32]⟩
abbrev S16384x96 : Shape := ⟨2, ![16384, 96]⟩

abbrev nBuf : Space → Nat
  | .hbm => 154
  | .vmem => 0
  | .smem => 0
  | _ => 0

abbrev hbmTy0_0 (i : Nat) : BufTy := match i % 128 with
  | 0 => ⟨S16384x32, .f32⟩
  | 1 => ⟨S16384x16384, .f32⟩
  | 2 => ⟨S32x32, .f32⟩
  | 3 => ⟨S32, .f32⟩
  | 4 => ⟨S32x32, .f32⟩
  | 5 => ⟨S32, .f32⟩
  | 6 => ⟨S96x32, .f32⟩
  | 7 => ⟨S32, .f32⟩
  | 8 => ⟨S9, .f32⟩
  | 9 => ⟨S9, .f32⟩
  | 10 => ⟨S16384x32, .f32⟩
  | 11 => ⟨S1, .f32⟩
  | 12 => ⟨S_, .f32⟩
  | 13 => ⟨S16384x32, .f32⟩
  | 14 => ⟨S16384x32, .f32⟩
  | 15 => ⟨S1, .f32⟩
  | 16 => ⟨S_, .f32⟩
  | 17 => ⟨S16384x32, .f32⟩
  | 18 => ⟨S16384x32, .f32⟩
  | 19 => ⟨S16384x32, .f32⟩
  | 20 => ⟨S1, .f32⟩
  | 21 => ⟨S_, .f32⟩
  | 22 => ⟨S16384x32, .f32⟩
  | 23 => ⟨S16384x32, .f32⟩
  | 24 => ⟨S1, .f32⟩
  | 25 => ⟨S_, .f32⟩
  | 26 => ⟨S16384x32, .f32⟩
  | 27 => ⟨S16384x32, .f32⟩
  | 28 => ⟨S16384x32, .f32⟩
  | 29 => ⟨S16384x32, .f32⟩
  | 30 => ⟨S_, .f32⟩
  | 31 => ⟨S16384x32, .f32⟩
  | 32 => ⟨S16384x32, .f32⟩
  | 33 => ⟨S16384x32, .f32⟩
  | 34 => ⟨S1, .f32⟩
  | 35 => ⟨S_, .f32⟩
  | 36 => ⟨S16384x32, .f32⟩
  | 37 => ⟨S16384x32, .f32⟩
  | 38 => ⟨S16384x32, .f32⟩
  | 39 => ⟨S1, .f32⟩
  | 40 => ⟨S_, .f32⟩
  | 41 => ⟨S16384x32, .f32⟩
  | 42 => ⟨S16384x32, .f32⟩
  | 43 => ⟨S16384x32, .f32⟩
  | 44 => ⟨S16384x32, .f32⟩
  | 45 => ⟨S_, .f32⟩
  | 46 => ⟨S16384x32, .f32⟩
  | 47 => ⟨S16384x32, .f32⟩
  | 48 => ⟨S16384x32, .f32⟩
  | 49 => ⟨S1, .f32⟩
  | 50 => ⟨S_, .f32⟩
  | 51 => ⟨S16384x32, .f32⟩
  | 52 => ⟨S16384x32, .f32⟩
  | 53 => ⟨S16384x32, .f32⟩
  | 54 => ⟨S1, .f32⟩
  | 55 => ⟨S_, .f32⟩
  | 56 => ⟨S16384x32, .f32⟩
  | 57 => ⟨S16384x32, .f32⟩
  | 58 => ⟨S16384x32, .f32⟩
  | 59 => ⟨S16384x32, .f32⟩
  | 60 => ⟨S_, .f32⟩
  | 61 => ⟨S16384x32, .f32⟩
  | 62 => ⟨S16384x32, .f32⟩
  | 63 => ⟨S16384x32, .f32⟩
  | 64 => ⟨S1, .f32⟩
  | 65 => ⟨S_, .f32⟩
  | 66 => ⟨S16384x32, .f32⟩
  | 67 => ⟨S16384x32, .f32⟩
  | 68 => ⟨S16384x32, .f32⟩
  | 69 => ⟨S1, .f32⟩
  | 70 => ⟨S_, .f32⟩
  | 71 => ⟨S16384x32, .f32⟩
  | 72 => ⟨S16384x32, .f32⟩
  | 73 => ⟨S16384x32, .f32⟩
  | 74 => ⟨S16384x32, .f32⟩
  | 75 => ⟨S_, .f32⟩
  | 76 => ⟨S16384x32, .f32⟩
  | 77 => ⟨S16384x32, .f32⟩
  | 78 => ⟨S16384x32, .f32⟩
  | 79 => ⟨S1, .f32⟩
  | 80 => ⟨S_, .f32⟩
  | 81 => ⟨S16384x32, .f32⟩
  | 82 => ⟨S16384x32, .f32⟩
  | 83 => ⟨S16384x32, .f32⟩
  | 84 => ⟨S1, .f32⟩
  | 85 => ⟨S_, .f32⟩
  | 86 => ⟨S16384x32, .f32⟩
  | 87 => ⟨S16384x32, .f32⟩
  | 88 => ⟨S16384x32, .f32⟩
  | 89 => ⟨S16384x32, .f32⟩
  | 90 => ⟨S_, .f32⟩
  | 91 => ⟨S16384x32, .f32⟩
  | 92 => ⟨S16384x32, .f32⟩
  | 93 => ⟨S16384x32, .f32⟩
  | 94 => ⟨S1, .f32⟩
  | 95 => ⟨S_, .f32⟩
  | 96 => ⟨S16384x32, .f32⟩
  | 97 => ⟨S16384x32, .f32⟩
  | 98 => ⟨S16384x32, .f32⟩
  | 99 => ⟨S1, .f32⟩
  | 100 => ⟨S_, .f32⟩
  | 101 => ⟨S16384x32, .f32⟩
  | 102 => ⟨S16384x32, .f32⟩
  | 103 => ⟨S16384x32, .f32⟩
  | 104 => ⟨S16384x32, .f32⟩
  | 105 => ⟨S_, .f32⟩
  | 106 => ⟨S16384x32, .f32⟩
  | 107 => ⟨S16384x32, .f32⟩
  | 108 => ⟨S16384x32, .f32⟩
  | 109 => ⟨S1, .f32⟩
  | 110 => ⟨S_, .f32⟩
  | 111 => ⟨S16384x32, .f32⟩
  | 112 => ⟨S16384x32, .f32⟩
  | 113 => ⟨S16384x32, .f32⟩
  | 114 => ⟨S1, .f32⟩
  | 115 => ⟨S_, .f32⟩
  | 116 => ⟨S16384x32, .f32⟩
  | 117 => ⟨S16384x32, .f32⟩
  | 118 => ⟨S16384x32, .f32⟩
  | 119 => ⟨S16384x32, .f32⟩
  | 120 => ⟨S_, .f32⟩
  | 121 => ⟨S16384x32, .f32⟩
  | 122 => ⟨S16384x32, .f32⟩
  | 123 => ⟨S16384x32, .f32⟩
  | 124 => ⟨S1, .f32⟩
  | 125 => ⟨S_, .f32⟩
  | 126 => ⟨S16384x32, .f32⟩
  | 127 => ⟨S16384x32, .f32⟩
  | _ => ⟨S16384x32, .f32⟩

abbrev hbmTy0_1 (i : Nat) : BufTy := match i % 128 with
  | 0 => ⟨S16384x32, .f32⟩
  | 1 => ⟨S1, .f32⟩
  | 2 => ⟨S_, .f32⟩
  | 3 => ⟨S16384x32, .f32⟩
  | 4 => ⟨S16384x32, .f32⟩
  | 5 => ⟨S16384x32, .f32⟩
  | 6 => ⟨S16384x32, .f32⟩
  | 7 => ⟨S16384x32, .f32⟩
  | 8 => ⟨S1x32, .f32⟩
  | 9 => ⟨S16384x32, .f32⟩
  | 10 => ⟨S16384x32, .f32⟩
  | 11 => ⟨S_, .f32⟩
  | 12 => ⟨S16384x32, .f32⟩
  | 13 => ⟨S16384x32, .f32⟩
  | 14 => ⟨S16384x32, .f32⟩
  | 15 => ⟨S1x32, .f32⟩
  | 16 => ⟨S16384x32, .f32⟩
  | 17 => ⟨S16384x32, .f32⟩
  | 18 => ⟨S_, .f32⟩
  | 19 => ⟨S16384x32, .f32⟩
  | 20 => ⟨S16384x32, .f32⟩
  | 21 => ⟨S16384x96, .f32⟩
  | 22 => ⟨S16384x32, .f32⟩
  | 23 => ⟨S1x32, .f32⟩
  | 24 => ⟨S16384x32, .f32⟩
  | 25 => ⟨S16384x32, .f32⟩
  | _ => ⟨S16384x32, .f32⟩

abbrev hbmTy (i : Nat) : BufTy := match i / 128 with
  | 0 => hbmTy0_0 i
  | 1 => hbmTy0_1 i
  | _ => ⟨S16384x32, .f32⟩

abbrev bufTy : (tb : Table) → Fin (tcTables nBuf tb) → BufTy
  | .hbm, ⟨i, _⟩ => hbmTy i
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_3 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_4 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_5 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_cst_6 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_7 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_call0_cst : Ref sig .tc := ⟨.hbm, 139, rfl⟩
abbrev main_call0_v0 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_call1_cst : Ref sig .tc := ⟨.hbm, 146, rfl⟩
abbrev main_call1_v0 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩

abbrev nD : Nat := 1
abbrev τ : Topo := Topo.v7x

variable {F : FTy → Type} [FloatOps F]

class Facts₀ : Prop where
  slices_S9_S1_0 : S9.Slices ![0] S1
  shapeCasts_S1_S_ : S1.ShapeCasts S_
  bcast_S_S16384x32 : S_.BroadcastsInDim S16384x32 (![] : Fin 0 → Fin S16384x32.rank)
  slices_S9_S1_1 : S9.Slices ![1] S1
  slices_S9_S1_2 : S9.Slices ![2] S1
  slices_S9_S1_3 : S9.Slices ![3] S1
  slices_S9_S1_4 : S9.Slices ![4] S1
  slices_S9_S1_5 : S9.Slices ![5] S1
  slices_S9_S1_6 : S9.Slices ![6] S1
  slices_S9_S1_7 : S9.Slices ![7] S1
  slices_S9_S1_8 : S9.Slices ![8] S1
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  concatenates_S16384x32_S16384x32_S16384x32_S16384x96_d1 : Shape.Concatenates [S16384x32, S16384x32, S16384x32] S16384x96 1
  dot_S16384x16384_S16384x32_S16384x32_1_0_0_1_n_n_wf : DotDims.WF S16384x16384 S16384x32 S16384x32 [1] [0] [0] [1] [] []
  dot_S16384x32_S32x32_S16384x32_1_0_0_1_n_n_wf : DotDims.WF S16384x32 S32x32 S16384x32 [1] [0] [0] [1] [] []
  dot_S16384x96_S96x32_S16384x32_1_0_0_1_n_n_wf : DotDims.WF S16384x96 S96x32 S16384x32 [1] [0] [0] [1] [] []

variable [Facts₀]

def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x96_S96x32_S16384x32_1_0_0_1_n_n : DotDims S16384x96 S96x32 S16384x32 where
  lhsContracting := [1]
  rhsContracting := [0]
  lhsNonContracting := [0]
  rhsNonContracting := [1]
  lhsBatch := []
  rhsBatch := []
  wf := dot_S16384x96_S96x32_S16384x32_1_0_0_1_n_n_wf

class Facts : Prop extends Facts₀ where

variable [Facts]
-- ==== Proof.K.Cast.lean ====
import proofs.«146843_j38328288150260_1_alg».proof.Proof.Gen.Kernel.Launch
import proofs.«146843_j38328288150260_1_alg».proof.Proof.Gen.Kernel.Skeleton
import proofs.«146843_j38328288150260_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x2048 := Rect.unit (s := S1024x2048) ![0, 0] S1024x2048.size inb_S1024x2048_S1024x2048_0_0

def out0_1 (x0 : Vec F S1024x2048 .f32) : Vec F S1024x2048 .bf16 :=
  View.canon [⟨r0_0, k0_pay1 (View.ld x0 r0_0)⟩]

theorem cover0_1 (p0 : Vec F S1024x2048 .bf16) (y : S1024x2048.Idx) :
    ∃ pc ∈ ([⟨r0_0, p0⟩] : List (View.Piece (Elt F) S1024x2048 .bf16)), y ∈ pc.1.set :=
  View.cover_of_tiled [⟨r0_0, p0⟩] S1024x2048.size (by rfl) y

set_option maxHeartbeats 1000000 in

theorem sound_kernel0 (c : Dev nD) (E : Set ℕ) (i : grid0.Coords) (arg0 : Memref sig .tc .vmem S1024x2048 .f32) (harg0 : arg0.IsWhole) (arg1 : Memref sig .tc .vmem S1024x2048 .bf16) (harg1 : arg1.IsWhole)
    (x0 : Vec F S1024x2048 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__cast_kernel i arg0 harg0 arg1 harg1) K := by
  simp only [cc0__cast_kernel_eq_skeleton]; unfold cc0__cast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Rg

end
-- ==== Proof.K.MatBody.lean ====
import proofs.«146843_j38328288150260_1_alg».proof.Proof.Gen.Kernel.Launch
import proofs.«146843_j38328288150260_1_alg».proof.Proof.Gen.Kernel.Skeleton
import proofs.«146843_j38328288150260_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rL : Rect S512x16384 := Rect.unit (s := S512x16384) ![0, 0] S512x16384.size inb_S512x16384_S512x16384_0_0
abbrev rZ : Rect S16384x32 := Rect.unit (s := S16384x32) ![0, 0] S16384x32.size inb_S16384x32_S16384x32_0_0
abbrev rO : Rect S512x32 := Rect.unit (s := S512x32) ![0, 0] S512x32.size inb_S512x32_S512x32_0_0

/-- The body of a matrix–block region over any payload `pay`: it stores `pay` of its two input blocks. -/
noncomputable def mvSkel (pay : Vec F S16384x32 .f32 → Vec F S512x16384 .bf16 → FVec F S512x32 .f32)
    (arg1 : Memref sig .tc .vmem S512x16384 .bf16) (harg1 : arg1.IsWhole) (arg2 : Memref sig .tc .vmem S16384x32 .f32) (harg2 : arg2.IsWhole) (arg3 : Memref sig .tc .vmem S512x32 .f32) (harg3 : arg3.IsWhole) :
    Prog (TpuEff nD τ sig (Elt F) Λ₀ .tc) PUnit := do
  let v0 : Vec F S16384x32 .f32 ← Prog.lift (.load arg2 rZ.toLoadRect (View.loadsAt_vmem h_S16384x32))
  let v2 : Vec F S512x16384 .bf16 ← Prog.lift (.load arg1 rL.toLoadRect (View.loadsAt_vmem h_S512x16384))
  let v5 : Vec F S512x32 .f32 ← Prog.lift (.load arg3 rO.toLoadRect (View.loadsAt_vmem h_S512x32))
  Prog.lift (.store arg3 rO (pay v0 v2) Finset.univ (View.stores_vmem_bits_univ h_S512x32 rfl) (.inl rfl))
  pure ⟨⟩

def mvOut (pay : Vec F S16384x32 .f32 → Vec F S512x16384 .bf16 → FVec F S512x32 .f32) (x0 : Vec F S512x16384 .bf16) (x1 : Vec F S16384x32 .f32) : Vec F S512x32 .f32 :=
  View.canon [⟨rO, pay (View.ld x1 rZ) (View.ld x0 rL)⟩]

theorem mvCover (p0 : Vec F S512x32 .f32) (y : S512x32.Idx) :
    ∃ pc ∈ ([⟨rO, p0⟩] : List (View.Piece (Elt F) S512x32 .f32)), y ∈ pc.1.set :=
  View.cover_of_tiled [⟨rO, p0⟩] S512x32.size (by rfl) y

set_option maxHeartbeats 1000000 in
theorem mvKernel (pay : Vec F S16384x32 .f32 → Vec F S512x16384 .bf16 → FVec F S512x32 .f32) (c : Dev nD) (E : Set ℕ) (arg0 : Memref sig .tc .vmem S512x16384 .bf16) (harg0 : arg0.IsWhole) (arg1 : Memref sig .tc .vmem S16384x32 .f32) (harg1 : arg1.IsWhole) (arg2 : Memref sig .tc .vmem S512x32 .f32) (harg2 : arg2.IsWhole)
    (x0 : Vec F S512x16384 .bf16) (x1 : Vec F S16384x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (mvOut pay x0 x1)) -∗ K ⟨⟩))
      ⊢ wp frame (wpE (defs₀ (F := F)) Variants.none c none) E (mvSkel pay arg0 harg0 arg1 harg1 arg2 harg2) K := by
  unfold mvSkel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (mvCover _)

/-- The same triple under a frame `Φ ∗ O`, up to the stated equations. -/
theorem mvBody (pay : Vec F S16384x32 .f32 → Vec F S512x16384 .bf16 → FVec F S512x32 .f32) (c : Dev nD)
    (arg0 : Memref sig .tc .vmem S512x16384 .bf16) (harg0 : arg0.IsWhole) (arg1 : Memref sig .tc .vmem S16384x32 .f32) (harg1 : arg1.IsWhole) (arg2 : Memref sig .tc .vmem S512x32 .f32) (harg2 : arg2.IsWhole)
    (prog : Prog (TpuEff nD τ sig (Elt F) Λ₀ .tc) PUnit) (hprog : prog = mvSkel pay arg0 harg0 arg1 harg1 arg2 harg2)
    (Φ O Φ' O' : sProp 𝕄) (b0 : Vec F S512x16384 .bf16 → Vec F S512x16384 .bf16) (b1 : Vec F S16384x32 .f32 → Vec F S16384x32 .f32)
    (b2 : Vec F S512x32 .f32 → Vec F S512x32 .f32) (x0 y0 : Vec F S512x16384 .bf16) (x1 y1 : Vec F S16384x32 .f32) (y2 : Vec F S512x32 .f32)
    (h0 : ∀ d, b0 d = x0) (h1 : ∀ d, b1 d = x1) (hΦ : Φ' = Φ) (hO : O' = O) (e0 : y0 = x0) (e1 : y1 = x1) (e2 : y2 = mvOut pay x0 x1) :
    iprop(Φ ∗ O ∗ (∃ d, owns (c : Thread nD τ) arg0 fullShare (b0 d)) ∗ (∃ d, owns (c : Thread nD τ) arg1 fullShare (b1 d))
        ∗ (∃ d, owns (c : Thread nD τ) arg2 fullShare (b2 d)))
      ⊢ wp frame (wpE (defs₀ (F := F)) Variants.none c none) Set.univ prog
          (fun _ => iprop(Φ' ∗ O' ∗ owns (c : Thread nD τ) arg0 fullShare y0 ∗ owns (c : Thread nD τ) arg1 fullShare y1
            ∗ owns (c : Thread nD τ) arg2 fullShare y2)) := by
  subst hprog hΦ hO e0 e1 e2
  simp only [h0, h1]
  iintro ⟨HΦ, Ho, ⟨%d0, H0⟩, ⟨%d1, H1⟩, ⟨%d2, H2⟩⟩
  iapply (mvKernel pay c Set.univ arg0 harg0 arg1 harg1 arg2 harg2 y0 y1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem skel1 (i a1 h1 a2 h2 a3 h3) : cc1__matmul_kernel (F := F) i a1 h1 a2 h2 a3 h3 = mvSkel k1_pay1 a1 h1 a2 h2 a3 h3 :=
  congrFun (congrFun (congrFun (congrFun (congrFun (congrFun (congrFun cc1__matmul_kernel_eq_skeleton i) a1) h1) a2) h2) a3) h3
theorem skel2 (i a1 h1 a2 h2 a3 h3) : cc2__matmul_kernel (F := F) i a1 h1 a2 h2 a3 h3 = mvSkel k2_pay1 a1 h1 a2 h2 a3 h3 :=
  congrFun (congrFun (congrFun (congrFun (congrFun (congrFun (congrFun cc2__matmul_kernel_eq_skeleton i) a1) h1) a2) h2) a3) h3
theorem skel3 (i a1 h1 a2 h2 a3 h3) : cc3__matmul_kernel (F := F) i a1 h1 a2 h2 a3 h3 = mvSkel k3_pay1 a1 h1 a2 h2 a3 h3 :=
  congrFun (congrFun (congrFun (congrFun (congrFun (congrFun (congrFun cc3__matmul_kernel_eq_skeleton i) a1) h1) a2) h2) a3) h3
theorem skel4 (i a1 h1 a2 h2 a3 h3) : cc4__matmul_kernel (F := F) i a1 h1 a2 h2 a3 h3 = mvSkel k4_pay1 a1 h1 a2 h2 a3 h3 :=
  congrFun (congrFun (congrFun (congrFun (congrFun (congrFun (congrFun cc4__matmul_kernel_eq_skeleton i) a1) h1) a2) h2) a3) h3
theorem skel5 (i a1 h1 a2 h2 a3 h3) : cc5__matmul_kernel (F := F) i a1 h1 a2 h2 a3 h3 = mvSkel k5_pay1 a1 h1 a2 h2 a3 h3 :=
  congrFun (congrFun (congrFun (congrFun (congrFun (congrFun (congrFun cc5__matmul_kernel_eq_skeleton i) a1) h1) a2) h2) a3) h3
theorem skel6 (i a1 h1 a2 h2 a3 h3) : cc6__matmul_kernel (F := F) i a1 h1 a2 h2 a3 h3 = mvSkel k6_pay1 a1 h1 a2 h2 a3 h3 :=
  congrFun (congrFun (congrFun (congrFun (congrFun (congrFun (congrFun cc6__matmul_kernel_eq_skeleton i) a1) h1) a2) h2) a3) h3
theorem skel7 (i a1 h1 a2 h2 a3 h3) : cc7__matmul_kernel (F := F) i a1 h1 a2 h2 a3 h3 = mvSkel k7_pay1 a1 h1 a2 h2 a3 h3 :=
  congrFun (congrFun (congrFun (congrFun (congrFun (congrFun (congrFun cc7__matmul_kernel_eq_skeleton i) a1) h1) a2) h2) a3) h3
theorem skel8 (i a1 h1 a2 h2 a3 h3) : cc8__matmul_kernel (F := F) i a1 h1 a2 h2 a3 h3 = mvSkel k8_pay1 a1 h1 a2 h2 a3 h3 :=
  congrFun (congrFun (congrFun (congrFun (congrFun (congrFun (congrFun cc8__matmul_kernel_eq_skeleton i) a1) h1) a2) h2) a3) h3

end Cert.Kernel.Rg

end
-- ==== Proof.K.Mats.lean ====
import proofs.«146843_j38328288150260_1_alg».proof.Proof.K.MatBody

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Region 1: block `t` of array `w` as the region is entered. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => mvOut k1_pay1 (iblk1 V c 0 t) (iblk1 V c 1 t)
  Φ _ := Pipeline.ΦA spec1 c
  q _ := fullShare
  owed _ := 0

theorem body_obligation1 (c : Dev nD) : BodyObligation (dat1 (F := F) V c) (defs₀ (F := F)) Variants.none () Set.univ := fun t => by
  rw [bigSep_W1, bigSep_W1]
  exact mvBody k1_pay1 c (st1_0 t) _ (st1_1 t) _ (st1_2 t) _ _
    (skel1 (grid1.coords t) _ (hstage1_0 ((cfg1.slots t 0).cast nbuf1_0)) _ (hstage1_1 ((cfg1.slots t 1).cast nbuf1_1)) _ (hstage1_2 ((cfg1.slots t 2).cast nbuf1_2)))
    _ _ _ _ ((dat1 V c).before 0 t) ((dat1 V c).before 1 t) ((dat1 V c).before 2 t) (iblk1 V c 0 t) _ (iblk1 V c 1 t) _ _
    ((dat1 V c).before_in_eq_fetched 0 rfl (fun _ => rfl) (fun _ _ _ => rfl) (fun _ => rfl) t)
    ((dat1 V c).before_in_eq_fetched 1 rfl (fun _ => rfl) (fun _ _ _ => rfl) (fun _ => rfl) t) rfl rfl rfl rfl rfl

/-- Region 2: block `t` of array `w` as the region is entered. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => mvOut k2_pay1 (iblk2 V c 0 t) (iblk2 V c 1 t)
  Φ _ := Pipeline.ΦA spec2 c
  q _ := fullShare
  owed _ := 0

theorem body_obligation2 (c : Dev nD) : BodyObligation (dat2 (F := F) V c) (defs₀ (F := F)) Variants.none () Set.univ := fun t => by
  rw [bigSep_W2, bigSep_W2]
  exact mvBody k2_pay1 c (st2_0 t) _ (st2_1 t) _ (st2_2 t) _ _
    (skel2 (grid2.coords t) _ (hstage2_0 ((cfg2.slots t 0).cast nbuf2_0)) _ (hstage2_1 ((cfg2.slots t 1).cast nbuf2_1)) _ (hstage2_2 ((cfg2.slots t 2).cast nbuf2_2)))
    _ _ _ _ ((dat2 V c).before 0 t) ((dat2 V c).before 1 t) ((dat2 V c).before 2 t) (iblk2 V c 0 t) _ (iblk2 V c 1 t) _ _
    ((dat2 V c).before_in_eq_fetched 0 rfl (fun _ => rfl) (fun _ _ _ => rfl) (fun _ => rfl) t)
    ((dat2 V c).before_in_eq_fetched 1 rfl (fun _ => rfl) (fun _ _ _ => rfl) (fun _ => rfl) t) rfl rfl rfl rfl rfl

/-- Region 3: block `t` of array `w` as the region is entered. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => mvOut k3_pay1 (iblk3 V c 0 t) (iblk3 V c 1 t)
  Φ _ := Pipeline.ΦA spec3 c
  q _ := fullShare
  owed _ := 0

theorem body_obligation3 (c : Dev nD) : BodyObligation (dat3 (F := F) V c) (defs₀ (F := F)) Variants.none () Set.univ := fun t => by
  rw [bigSep_W3, bigSep_W3]
  exact mvBody k3_pay1 c (st3_0 t) _ (st3_1 t) _ (st3_2 t) _ _
    (skel3 (grid3.coords t) _ (hstage3_0 ((cfg3.slots t 0).cast nbuf3_0)) _ (hstage3_1 ((cfg3.slots t 1).cast nbuf3_1)) _ (hstage3_2 ((cfg3.slots t 2).cast nbuf3_2)))
    _ _ _ _ ((dat3 V c).before 0 t) ((dat3 V c).before 1 t) ((dat3 V c).before 2 t) (iblk3 V c 0 t) _ (iblk3 V c 1 t) _ _
    ((dat3 V c).before_in_eq_fetched 0 rfl (fun _ => rfl) (fun _ _ _ => rfl) (fun _ => rfl) t)
    ((dat3 V c).before_in_eq_fetched 1 rfl (fun _ => rfl) (fun _ _ _ => rfl) (fun _ => rfl) t) rfl rfl rfl rfl rfl

/-- Region 4: block `t` of array `w` as the region is entered. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => mvOut k4_pay1 (iblk4 V c 0 t) (iblk4 V c 1 t)
  Φ _ := Pipeline.ΦA spec4 c
  q _ := fullShare
  owed _ := 0

theorem body_obligation4 (c : Dev nD) : BodyObligation (dat4 (F := F) V c) (defs₀ (F := F)) Variants.none () Set.univ := fun t => by
  rw [bigSep_W4, bigSep_W4]
  exact mvBody k4_pay1 c (st4_0 t) _ (st4_1 t) _ (st4_2 t) _ _
    (skel4 (grid4.coords t) _ (hstage4_0 ((cfg4.slots t 0).cast nbuf4_0)) _ (hstage4_1 ((cfg4.slots t 1).cast nbuf4_1)) _ (hstage4_2 ((cfg4.slots t 2).cast nbuf4_2)))
    _ _ _ _ ((dat4 V c).before 0 t) ((dat4 V c).before 1 t) ((dat4 V c).before 2 t) (iblk4 V c 0 t) _ (iblk4 V c 1 t) _ _
    ((dat4 V c).before_in_eq_fetched 0 rfl (fun _ => rfl) (fun _ _ _ => rfl) (fun _ => rfl) t)
    ((dat4 V c).before_in_eq_fetched 1 rfl (fun _ => rfl) (fun _ _ _ => rfl) (fun _ => rfl) t) rfl rfl rfl rfl rfl

/-- Region 5: block `t` of array `w` as the region is entered. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => mvOut k5_pay1 (iblk5 V c 0 t) (iblk5 V c 1 t)
  Φ _ := Pipeline.ΦA spec5 c
  q _ := fullShare
  owed _ := 0

theorem body_obligation5 (c : Dev nD) : BodyObligation (dat5 (F := F) V c) (defs₀ (F := F)) Variants.none () Set.univ := fun t => by
  rw [bigSep_W5, bigSep_W5]
  exact mvBody k5_pay1 c (st5_0 t) _ (st5_1 t) _ (st5_2 t) _ _
    (skel5 (grid5.coords t) _ (hstage5_0 ((cfg5.slots t 0).cast nbuf5_0)) _ (hstage5_1 ((cfg5.slots t 1).cast nbuf5_1)) _ (hstage5_2 ((cfg5.slots t 2).cast nbuf5_2)))
    _ _ _ _ ((dat5 V c).before 0 t) ((dat5 V c).before 1 t) ((dat5 V c).before 2 t) (iblk5 V c 0 t) _ (iblk5 V c 1 t) _ _
    ((dat5 V c).before_in_eq_fetched 0 rfl (fun _ => rfl) (fun _ _ _ => rfl) (fun _ => rfl) t)
    ((dat5 V c).before_in_eq_fetched 1 rfl (fun _ => rfl) (fun _ _ _ => rfl) (fun _ => rfl) t) rfl rfl rfl rfl rfl

/-- Region 6: block `t` of array `w` as the region is entered. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => mvOut k6_pay1 (iblk6 V c 0 t) (iblk6 V c 1 t)
  Φ _ := Pipeline.ΦA spec6 c
  q _ := fullShare
  owed _ := 0

theorem body_obligation6 (c : Dev nD) : BodyObligation (dat6 (F := F) V c) (defs₀ (F := F)) Variants.none () Set.univ := fun t => by
  rw [bigSep_W6, bigSep_W6]
  exact mvBody k6_pay1 c (st6_0 t) _ (st6_1 t) _ (st6_2 t) _ _
    (skel6 (grid6.coords t) _ (hstage6_0 ((cfg6.slots t 0).cast nbuf6_0)) _ (hstage6_1 ((cfg6.slots t 1).cast nbuf6_1)) _ (hstage6_2 ((cfg6.slots t 2).cast nbuf6_2)))
    _ _ _ _ ((dat6 V c).before 0 t) ((dat6 V c).before 1 t) ((dat6 V c).before 2 t) (iblk6 V c 0 t) _ (iblk6 V c 1 t) _ _
    ((dat6 V c).before_in_eq_fetched 0 rfl (fun _ => rfl) (fun _ _ _ => rfl) (fun _ => rfl) t)
    ((dat6 V c).before_in_eq_fetched 1 rfl (fun _ => rfl) (fun _ _ _ => rfl) (fun _ => rfl) t) rfl rfl rfl rfl rfl

/-- Region 7: block `t` of array `w` as the region is entered. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => mvOut k7_pay1 (iblk7 V c 0 t) (iblk7 V c 1 t)
  Φ _ := Pipeline.ΦA spec7 c
  q _ := fullShare
  owed _ := 0

theorem body_obligation7 (c : Dev nD) : BodyObligation (dat7 (F := F) V c) (defs₀ (F := F)) Variants.none () Set.univ := fun t => by
  rw [bigSep_W7, bigSep_W7]
  exact mvBody k7_pay1 c (st7_0 t) _ (st7_1 t) _ (st7_2 t) _ _
    (skel7 (grid7.coords t) _ (hstage7_0 ((cfg7.slots t 0).cast nbuf7_0)) _ (hstage7_1 ((cfg7.slots t 1).cast nbuf7_1)) _ (hstage7_2 ((cfg7.slots t 2).cast nbuf7_2)))
    _ _ _ _ ((dat7 V c).before 0 t) ((dat7 V c).before 1 t) ((dat7 V c).before 2 t) (iblk7 V c 0 t) _ (iblk7 V c 1 t) _ _
    ((dat7 V c).before_in_eq_fetched 0 rfl (fun _ => rfl) (fun _ _ _ => rfl) (fun _ => rfl) t)
    ((dat7 V c).before_in_eq_fetched 1 rfl (fun _ => rfl) (fun _ _ _ => rfl) (fun _ => rfl) t) rfl rfl rfl rfl rfl

/-- Region 8: block `t` of array `w` as the region is entered. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => mvOut k8_pay1 (iblk8 V c 0 t) (iblk8 V c 1 t)
  Φ _ := Pipeline.ΦA spec8 c
  q _ := fullShare
  owed _ := 0

theorem body_obligation8 (c : Dev nD) : BodyObligation (dat8 (F := F) V c) (defs₀ (F := F)) Variants.none () Set.univ := fun t => by
  rw [bigSep_W8, bigSep_W8]
  exact mvBody k8_pay1 c (st8_0 t) _ (st8_1 t) _ (st8_2 t) _ _
    (skel8 (grid8.coords t) _ (hstage8_0 ((cfg8.slots t 0).cast nbuf8_0)) _ (hstage8_1 ((cfg8.slots t 1).cast nbuf8_1)) _ (hstage8_2 ((cfg8.slots t 2).cast nbuf8_2)))
    _ _ _ _ ((dat8 V c).before 0 t) ((dat8 V c).before 1 t) ((dat8 V c).before 2 t) (iblk8 V c 0 t) _ (iblk8 V c 1 t) _ _
    ((dat8 V c).before_in_eq_fetched 0 rfl (fun _ => rfl) (fun _ _ _ => rfl) (fun _ => rfl) t)
    ((dat8 V c).before_in_eq_fetched 1 rfl (fun _ => rfl) (fun _ _ _ => rfl) (fun _ => rfl) t) rfl rfl rfl rfl rfl

end Cert.Kernel.Rg

end
-- ==== Proof.K.Fold.lean ====
import proofs.«146843_j38328288150260_1_alg».proof.Proof.K.Cast
import proofs.«146843_j38328288150260_1_alg».proof.Proof.K.Mats
import proofs.«146843_j38328288150260_1_alg».proof.Proof.Gen.Kernel.Regions

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A region changes no array but its outputs: each of its input arrays ends as it began. -/
theorem keep_of_in {cfg : Cfg sig Λ₀} (hinj : Function.Injective (Pipeline.arrRef cfg.spec)) (c : Dev nD) (W : Valuation τ sig (Elt F))
    (dat : Dat τ (Elt F) Unit ℕ (UR sig nD τ) ℕ cfg c) (hA : ∀ w, dat.A w = W (Proc.devRef .tc (Pipeline.arrRef cfg.spec w)))
    (outs : List (Ref sig .tc)) (hout : ∀ w, (cfg.win w).isOut = true → Pipeline.arrRef cfg.spec w ∈ outs) (r : Ref sig .tc) (hr : r ∉ outs) :
    Pipeline.withArrays cfg.spec c W (fun w => dat.arrAt w cfg.N) (Proc.devRef .tc r) = W (Proc.devRef .tc r) := by
  by_cases h : ∃ w, Pipeline.arrRef cfg.spec w = r
  · obtain ⟨w, rfl⟩ := h
    have hin : (cfg.win w).isOut = false := by
      cases hw : (cfg.win w).isOut
      · rfl
      · exact absurd (hout w hw) hr
    rw [Pipeline.withArrays_arr cfg.spec hinj, dat.arrAt_in w hin, hA]
  · exact Pipeline.withArrays_of_ne cfg.spec c _ _ r fun w e => h ⟨w, e⟩

/-- `W j`: the contents of core `c`'s arrays before item `j` of @main; `U j` the same over the TensorCore's references. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b

def W1 (c : Dev nD) : Valuation τ sig (Elt F) :=
  Pipeline.withArrays spec0 c (W0 m ρ c) fun w => (dat0 (U0 m ρ) c).arrAt w cfg0.N
abbrev U1 : (c : Dev nD) → (b : Ref sig .tc) → Buf (Elt F) ((c : Thread nD τ).loc b) := fun c b => W1 m ρ c b
theorem W1_keep (c : Dev nD) (r : Ref sig .tc) (h : r ∉ [main_v0]) : W1 m ρ c (Proc.devRef .tc r) = W0 m ρ c (Proc.devRef .tc r) :=
  keep_of_in launch0.win.arr_inj c _ (dat0 (U0 m ρ) c) (fun _ => rfl) _ (by decide) r h

def W2 (c : Dev nD) : Valuation τ sig (Elt F) :=
  Pipeline.withArrays spec1 c (W1 m ρ c) fun w => (dat1 (U1 m ρ) c).arrAt w cfg1.N
theorem W2_keep (c : Dev nD) (r : Ref sig .tc) (h : r ∉ [main_v1]) :
    W2 m ρ c (Proc.devRef .tc r) = W1 m ρ c (Proc.devRef .tc r) :=
  keep_of_in launch1.win.arr_inj c _ (dat1 (U1 m ρ) c) (fun _ => rfl) _ (by decide) r h
abbrev W3 : Dev nD → Valuation τ sig (Elt F) := fun c => StableHlo.after hostOps2 (W2 m ρ c)
abbrev U3 : (c : Dev nD) → (b : Ref sig .tc) → Buf (Elt F) ((c : Thread nD τ).loc b) := fun c b => W3 m ρ c b
theorem W3_keep (c : Dev nD) (r : Ref sig .tc) (h : r ∉ hostOps2_W) :
    W3 m ρ c (Proc.devRef .tc r) = W2 m ρ c (Proc.devRef .tc r) :=
  StableHlo.after_of_writes_sub hostOps2 _ hostOps2_writes h

def W4 (c : Dev nD) : Valuation τ sig (Elt F) :=
  Pipeline.withArrays spec2 c (W3 m ρ c) fun w => (dat2 (U3 m ρ) c).arrAt w cfg2.N
theorem W4_keep (c : Dev nD) (r : Ref sig .tc) (h : r ∉ [main_v12]) :
    W4 m ρ c (Proc.devRef .tc r) = W3 m ρ c (Proc.devRef .tc r) :=
  keep_of_in launch2.win.arr_inj c _ (dat2 (U3 m ρ) c) (fun _ => rfl) _ (by decide) r h
abbrev W5 : Dev nD → Valuation τ sig (Elt F) := fun c => StableHlo.after hostOps3 (W4 m ρ c)
abbrev U5 : (c : Dev nD) → (b : Ref sig .tc) → Buf (Elt F) ((c : Thread nD τ).loc b) := fun c b => W5 m ρ c b
theorem W5_keep (c : Dev nD) (r : Ref sig .tc) (h : r ∉ hostOps3_W) :
    W5 m ρ c (Proc.devRef .tc r) = W4 m ρ c (Proc.devRef .tc r) :=
  StableHlo.after_of_writes_sub hostOps3 _ hostOps3_writes h

def W6 (c : Dev nD) : Valuation τ sig (Elt F) :=
  Pipeline.withArrays spec3 c (W5 m ρ c) fun w => (dat3 (U5 m ρ) c).arrAt w cfg3.N
theorem W6_keep (c : Dev nD) (r : Ref sig .tc) (h : r ∉ [main_v22]) :
    W6 m ρ c (Proc.devRef .tc r) = W5 m ρ c (Proc.devRef .tc r) :=
  keep_of_in launch3.win.arr_inj c _ (dat3 (U5 m ρ) c) (fun _ => rfl) _ (by decide) r h
abbrev W7 : Dev nD → Valuation τ sig (Elt F) := fun c => StableHlo.after hostOps4 (W6 m ρ c)
abbrev U7 : (c : Dev nD) → (b : Ref sig .tc) → Buf (Elt F) ((c : Thread nD τ).loc b) := fun c b => W7 m ρ c b
theorem W7_keep (c : Dev nD) (r : Ref sig .tc) (h : r ∉ hostOps4_W) :
    W7 m ρ c (Proc.devRef .tc r) = W6 m ρ c (Proc.devRef .tc r) :=
  StableHlo.after_of_writes_sub hostOps4 _ hostOps4_writes h

def W8 (c : Dev nD) : Valuation τ sig (Elt F) :=
  Pipeline.withArrays spec4 c (W7 m ρ c) fun w => (dat4 (U7 m ρ) c).arrAt w cfg4.N
theorem W8_keep (c : Dev nD) (r : Ref sig .tc) (h : r ∉ [main_v32]) :
    W8 m ρ c (Proc.devRef .tc r) = W7 m ρ c (Proc.devRef .tc r) :=
  keep_of_in launch4.win.arr_inj c _ (dat4 (U7 m ρ) c) (fun _ => rfl) _ (by decide) r h
abbrev W9 : Dev nD → Valuation τ sig (Elt F) := fun c => StableHlo.after hostOps5 (W8 m ρ c)
abbrev U9 : (c : Dev nD) → (b : Ref sig .tc) → Buf (Elt F) ((c : Thread nD τ).loc b) := fun c b => W9 m ρ c b
theorem W9_keep (c : Dev nD) (r : Ref sig .tc) (h : r ∉ hostOps5_W) :
    W9 m ρ c (Proc.devRef .tc r) = W8 m ρ c (Proc.devRef .tc r) :=
  StableHlo.after_of_writes_sub hostOps5 _ hostOps5_writes h

def W10 (c : Dev nD) : Valuation τ sig (Elt F) :=
  Pipeline.withArrays spec5 c (W9 m ρ c) fun w => (dat5 (U9 m ρ) c).arrAt w cfg5.N
theorem W10_keep (c : Dev nD) (r : Ref sig .tc) (h : r ∉ [main_v42]) :
    W10 m ρ c (Proc.devRef .tc r) = W9 m ρ c (Proc.devRef .tc r) :=
  keep_of_in launch5.win.arr_inj c _ (dat5 (U9 m ρ) c) (fun _ => rfl) _ (by decide) r h
abbrev W11 : Dev nD → Valuation τ sig (Elt F) := fun c => StableHlo.after hostOps6 (W10 m ρ c)
abbrev U11 : (c : Dev nD) → (b : Ref sig .tc) → Buf (Elt F) ((c : Thread nD τ).loc b) := fun c b => W11 m ρ c b
theorem W11_keep (c : Dev nD) (r : Ref sig .tc) (h : r ∉ hostOps6_W) :
    W11 m ρ c (Proc.devRef .tc r) = W10 m ρ c (Proc.devRef .tc r) :=
  StableHlo.after_of_writes_sub hostOps6 _ hostOps6_writes h

def W12 (c : Dev nD) : Valuation τ sig (Elt F) :=
  Pipeline.withArrays spec6 c (W11 m ρ c) fun w => (dat6 (U11 m ρ) c).arrAt w cfg6.N
theorem W12_keep (c : Dev nD) (r : Ref sig .tc) (h : r ∉ [main_v52]) :
    W12 m ρ c (Proc.devRef .tc r) = W11 m ρ c (Proc.devRef .tc r) :=
  keep_of_in launch6.win.arr_inj c _ (dat6 (U11 m ρ) c) (fun _ => rfl) _ (by decide) r h
abbrev W13 : Dev nD → Valuation τ sig (Elt F) := fun c => StableHlo.after hostOps7 (W12 m ρ c)
abbrev U13 : (c : Dev nD) → (b : Ref sig .tc) → Buf (Elt F) ((c : Thread nD τ).loc b) := fun c b => W13 m ρ c b
theorem W13_keep (c : Dev nD) (r : Ref sig .tc) (h : r ∉ hostOps7_W) :
    W13 m ρ c (Proc.devRef .tc r) = W12 m ρ c (Proc.devRef .tc r) :=
  StableHlo.after_of_writes_sub hostOps7 _ hostOps7_writes h

def W14 (c : Dev nD) : Valuation τ sig (Elt F) :=
  Pipeline.withArrays spec7 c (W13 m ρ c) fun w => (dat7 (U13 m ρ) c).arrAt w cfg7.N
theorem W14_keep (c : Dev nD) (r : Ref sig .tc) (h : r ∉ [main_v62]) :
    W14 m ρ c (Proc.devRef .tc r) = W13 m ρ c (Proc.devRef .tc r) :=
  keep_of_in launch7.win.arr_inj c _ (dat7 (U13 m ρ) c) (fun _ => rfl) _ (by decide) r h
abbrev W15 : Dev nD → Valuation τ sig (Elt F) := fun c => StableHlo.after hostOps8 (W14 m ρ c)
abbrev U15 : (c : Dev nD) → (b : Ref sig .tc) → Buf (Elt F) ((c : Thread nD τ).loc b) := fun c b => W15 m ρ c b
theorem W15_keep (c : Dev nD) (r : Ref sig .tc) (h : r ∉ hostOps8_W) :
    W15 m ρ c (Proc.devRef .tc r) = W14 m ρ c (Proc.devRef .tc r) :=
  StableHlo.after_of_writes_sub hostOps8 _ hostOps8_writes h

def W16 (c : Dev nD) : Valuation τ sig (Elt F) :=
  Pipeline.withArrays spec8 c (W15 m ρ c) fun w => (dat8 (U15 m ρ) c).arrAt w cfg8.N
theorem W16_keep (c : Dev nD) (r : Ref sig .tc) (h : r ∉ [main_v72]) :
    W16 m ρ c (Proc.devRef .tc r) = W15 m ρ c (Proc.devRef .tc r) :=
  keep_of_in launch8.win.arr_inj c _ (dat8 (U15 m ρ) c) (fun _ => rfl) _ (by decide) r h
abbrev W17 : Dev nD → Valuation τ sig (Elt F) := fun c => StableHlo.after hostOps9 (W16 m ρ c)
abbrev U17 : (c : Dev nD) → (b : Ref sig .tc) → Buf (Elt F) ((c : Thread nD τ).loc b) := fun c b => W17 m ρ c b
theorem W17_keep (c : Dev nD) (r : Ref sig .tc) (h : r ∉ hostOps9_W) :
    W17 m ρ c (Proc.devRef .tc r) = W16 m ρ c (Proc.devRef .tc r) :=
  StableHlo.after_of_writes_sub hostOps9 _ hostOps9_writes h

abbrev W18 : Dev nD → Valuation τ sig (Elt F) := fun c => StableHlo.after hostOps9_1 (W17 m ρ c)
theorem W18_keep (c : Dev nD) (r : Ref sig .tc) (h : r ∉ hostOps9_1_W) :
    W18 m ρ c (Proc.devRef .tc r) = W17 m ρ c (Proc.devRef .tc r) :=
  StableHlo.after_of_writes_sub hostOps9_1 _ hostOps9_1_writes h

abbrev W19 : Dev nD → Valuation τ sig (Elt F) := fun c => StableHlo.after hostOps9_2 (W18 m ρ c)
theorem W19_keep (c : Dev nD) (r : Ref sig .tc) (h : r ∉ hostOps9_2_W) :
    W19 m ρ c (Proc.devRef .tc r) = W18 m ρ c (Proc.devRef .tc r) :=
  StableHlo.after_of_writes_sub hostOps9_2 _ hostOps9_2_writes h

abbrev W20 : Dev nD → Valuation τ sig (Elt F) := fun c => StableHlo.after hostOps9_3 (W19 m ρ c)
theorem W20_keep (c : Dev nD) (r : Ref sig .tc) (h : r ∉ hostOps9_3_W) :
    W20 m ρ c (Proc.devRef .tc r) = W19 m ρ c (Proc.devRef .tc r) :=
  StableHlo.after_of_writes_sub hostOps9_3 _ hostOps9_3_writes h

abbrev W21 : Dev nD → Valuation τ sig (Elt F) := fun c => StableHlo.after hostOps9_4 (W20 m ρ c)
theorem W21_keep (c : Dev nD) (r : Ref sig .tc) (h : r ∉ hostOps9_4_W) :
    W21 m ρ c (Proc.devRef .tc r) = W20 m ρ c (Proc.devRef .tc r) :=
  StableHlo.after_of_writes_sub hostOps9_4 _ hostOps9_4_writes h

/-- The references some item of @main writes. -/
abbrev written : List (Ref sig .tc) :=
  [main_v0, main_v1, main_v12, main_v22, main_v32, main_v42, main_v52, main_v62, main_v72] ++ hostOps2_W ++ hostOps3_W ++ hostOps4_W ++ hostOps5_W ++ hostOps6_W ++ hostOps7_W ++ hostOps8_W
    ++ hostOps9_W ++ hostOps9_1_W ++ hostOps9_2_W ++ hostOps9_3_W ++ hostOps9_4_W

/-- A reference no item writes holds at the end what it held at the launch. -/
theorem W21_of_unwritten (c : Dev nD) (r : Ref sig .tc) (h : r ∉ written) :
    W21 m ρ c (Proc.devRef .tc r) = m ((c : Thread nD τ).loc r) := by
  have hm : ∀ l : List (Ref sig .tc), (∀ x ∈ l, x ∈ written) → r ∉ l := fun l hl hr => h (hl r hr)
  rw [W21_keep m ρ c r (hm _ (by decide)), W20_keep m ρ c r (hm _ (by decide)), W19_keep m ρ c r (hm _ (by decide)),
    W18_keep m ρ c r (hm _ (by decide)), W17_keep m ρ c r (hm _ (by decide)), W16_keep m ρ c r (hm _ (by decide)),
    W15_keep m ρ c r (hm _ (by decide)), W14_keep m ρ c r (hm _ (by decide)), W13_keep m ρ c r (hm _ (by decide)),
    W12_keep m ρ c r (hm _ (by decide)), W11_keep m ρ c r (hm _ (by decide)), W10_keep m ρ c r (hm _ (by decide)),
    W9_keep m ρ c r (hm _ (by decide)), W8_keep m ρ c r (hm _ (by decide)), W7_keep m ρ c r (hm _ (by decide)),
    W6_keep m ρ c r (hm _ (by decide)), W5_keep m ρ c r (hm _ (by decide)), W4_keep m ρ c r (hm _ (by decide)),
    W3_keep m ρ c r (hm _ (by decide)), W2_keep m ρ c r (hm _ (by decide)), W1_keep m ρ c r (hm _ (by decide))]

end Cert.Kernel.Rg

end
-- ==== Proof.K.Data.lean ====
import proofs.«146843_j38328288150260_1_alg».proof.Proof.K.Fold

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev admR : (p : Fin 9) → (pcfgs (F := F) p).Adm := fun p => (cfgs p).toPCfg_adm

def pd : (p : Fin 9) → (c : Dev nD) → Dat τ (Elt F) Unit ℕ (UR sig nD τ) ℕ (Pipeline.pin (pcfgs (F := F)) admR p) c
  | ⟨0, _⟩ => fun c => dat0 (U0 m ρ) c
  | ⟨1, _⟩ => fun c => dat1 (U1 m ρ) c
  | ⟨2, _⟩ => fun c => dat2 (U3 m ρ) c
  | ⟨3, _⟩ => fun c => dat3 (U5 m ρ) c
  | ⟨4, _⟩ => fun c => dat4 (U7 m ρ) c
  | ⟨5, _⟩ => fun c => dat5 (U9 m ρ) c
  | ⟨6, _⟩ => fun c => dat6 (U11 m ρ) c
  | ⟨7, _⟩ => fun c => dat7 (U13 m ρ) c
  | ⟨8, _⟩ => fun c => dat8 (U15 m ρ) c

abbrev 𝒱r : Variants := Variants.none

abbrev Lr : GSem nD τ sig → Finset Unit := fun _ => ∅
abbrev lvr : GSem nD τ sig → Unit → ℕ := fun _ _ => 0

abbrev Rr (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (W21 m ρ c) ∗ ∃ r, prngReg c r)

end Cert.Kernel.Rg

end
-- ==== Proof.K.Regs.lean ====
import proofs.«146843_j38328288150260_1_alg».proof.Proof.K.Data

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Pipeline `p` as a segment of the run, from the arrays at `Win` to the arrays at `Wout`: `Win` with `p`'s arrays at the
    region's results. -/
def mkReg (p : Fin 9) (L : Pipeline.LaunchFacts (nD := nD) (τ := τ) cfgs p) (Win Wout : Dev nD → Valuation τ sig (Elt F))
    (hb : ∀ c, BodyObligation (pd m ρ p c) (defs₀ (F := F)) 𝒱r () Set.univ)
    (hA : ∀ c w, (pd m ρ p c).A w = Win c (Proc.devRef .tc (Pipeline.arrRef (pcfgs (F := F) p).spec w)))
    (hq : ∀ c w, (pd m ρ p c).q w = fullShare) (ho : ∀ c t, (pd m ρ p c).owed t = 0)
    (hrec : ∀ c t, (pd m ρ p c).recorded t = Set.univ)
    (hΦ : ∀ c t, (pd m ρ p c).Φ t = Pipeline.ΦA (pcfgs (F := F) p).spec c)
    (hW : ∀ c, Wout c = Pipeline.withArrays (pcfgs (F := F) p).spec c (Win c) fun w => (pd m ρ p c).arrAt w (cfgs p).N) :
    Pipeline.RegionSeg (pcfgs (F := F)) admR (pd m ρ) () defs₀ 𝒱r Lr lvr p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ Lr lvr p ho
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop(∃ r, prngReg c r)
  Y c := iprop(∃ r, prngReg c r)
  Z c := Pipeline.unscopedRest (Ix := Unit) (Name := ℕ) (U := UR sig nD τ) (Lvl := ℕ) (pcfgs (F := F) p).spec c fun b => Win c (Proc.devRef .tc b)
  hentry c := by
    rw [Pipeline.ownSems0_none]
    have hsplit := Pipeline.arrays_of_unscopedBufs (p := p) (pcfgs (F := F)) admR (pd m ρ) L.win L.arr_whole c
      ((pd m ρ p c).share_full (hq c)) (fun b => Win c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c 0]
      icases HO with ⟨%W, HO⟩; iexists W; isplitr; · ipureintro; exact fun _ _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) admR (Ix := Unit) (Name := ℕ) (U := UR sig nD τ) (Lvl := ℕ)
      L.win L.arr_whole c (pd m ρ) ((pd m ρ p c).share_full (hq c))
      (fun b => Win c (Proc.devRef .tc b)) (fun b => Wout c (Proc.devRef .tc b)) ((pd m ρ p c).arrAt · (cfgs p).N)
      (fun w => by rw [hW c]; exact (Pipeline.withArrays_arr (pcfgs (F := F) p).spec L.win.arr_inj c (Win c) (fun w => (pd m ρ p c).arrAt w (cfgs p).N) w).symm)
      (fun b hb => by rw [hW c]; exact Pipeline.withArrays_of_ne (pcfgs (F := F) p).spec c (Win c) (fun w => (pd m ρ p c).arrAt w (cfgs p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c _]
    icases HO with ⟨%W, -, HO⟩; iexists W; iexact HO

def reg0 := mkReg m ρ 0 launch0 (W0 m ρ) (W1 m ρ) (body_obligation0 (U0 m ρ)) (fun _ _ => rfl) (fun _ _ => rfl) (fun _ _ => rfl) (fun _ _ => rfl) (fun _ _ => rfl) (fun _ => rfl)
def reg1 := mkReg m ρ 1 launch1 (W1 m ρ) (W2 m ρ) (body_obligation1 (U1 m ρ)) (fun _ _ => rfl) (fun _ _ => rfl) (fun _ _ => rfl) (fun _ _ => rfl) (fun _ _ => rfl) (fun _ => rfl)
def reg2 := mkReg m ρ 2 launch2 (W3 m ρ) (W4 m ρ) (body_obligation2 (U3 m ρ)) (fun _ _ => rfl) (fun _ _ => rfl) (fun _ _ => rfl) (fun _ _ => rfl) (fun _ _ => rfl) (fun _ => rfl)
def reg3 := mkReg m ρ 3 launch3 (W5 m ρ) (W6 m ρ) (body_obligation3 (U5 m ρ)) (fun _ _ => rfl) (fun _ _ => rfl) (fun _ _ => rfl) (fun _ _ => rfl) (fun _ _ => rfl) (fun _ => rfl)
def reg4 := mkReg m ρ 4 launch4 (W7 m ρ) (W8 m ρ) (body_obligation4 (U7 m ρ)) (fun _ _ => rfl) (fun _ _ => rfl) (fun _ _ => rfl) (fun _ _ => rfl) (fun _ _ => rfl) (fun _ => rfl)
def reg5 := mkReg m ρ 5 launch5 (W9 m ρ) (W10 m ρ) (body_obligation5 (U9 m ρ)) (fun _ _ => rfl) (fun _ _ => rfl) (fun _ _ => rfl) (fun _ _ => rfl) (fun _ _ => rfl) (fun _ => rfl)
def reg6 := mkReg m ρ 6 launch6 (W11 m ρ) (W12 m ρ) (body_obligation6 (U11 m ρ)) (fun _ _ => rfl) (fun _ _ => rfl) (fun _ _ => rfl) (fun _ _ => rfl) (fun _ _ => rfl) (fun _ => rfl)
def reg7 := mkReg m ρ 7 launch7 (W13 m ρ) (W14 m ρ) (body_obligation7 (U13 m ρ)) (fun _ _ => rfl) (fun _ _ => rfl) (fun _ _ => rfl) (fun _ _ => rfl) (fun _ _ => rfl) (fun _ => rfl)
def reg8 := mkReg m ρ 8 launch8 (W15 m ρ) (W16 m ρ) (body_obligation8 (U15 m ρ)) (fun _ _ => rfl) (fun _ _ => rfl) (fun _ _ => rfl) (fun _ _ => rfl) (fun _ _ => rfl) (fun _ => rfl)

end Cert.Kernel.Rg

end
-- ==== Proof.K.Run.lean ====
import proofs.«146843_j38328288150260_1_alg».proof.Proof.K.Regs

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segsR : List (Pipeline.Seg (pcfgs (F := F)) admR (pd m ρ) () defs₀ 𝒱r Lr lvr) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)),
    .region (reg3 m ρ),
    .host (hseg hostOps4 hostOps4_sub hostOps4_fresh (W6 m ρ)),
    .region (reg4 m ρ),
    .host (hseg hostOps5 hostOps5_sub hostOps5_fresh (W8 m ρ)),
    .region (reg5 m ρ),
    .host (hseg hostOps6 hostOps6_sub hostOps6_fresh (W10 m ρ)),
    .region (reg6 m ρ),
    .host (hseg hostOps7 hostOps7_sub hostOps7_fresh (W12 m ρ)),
    .region (reg7 m ρ),
    .host (hseg hostOps8 hostOps8_sub hostOps8_fresh (W14 m ρ)),
    .region (reg8 m ρ),
    .host (hseg hostOps9 hostOps9_sub hostOps9_fresh (W16 m ρ)),
    .host (hseg hostOps9_1 hostOps9_1_sub hostOps9_1_fresh (W17 m ρ)),
    .host (hseg hostOps9_2 hostOps9_2_sub hostOps9_2_fresh (W18 m ρ)),
    .host (hseg hostOps9_3 hostOps9_3_sub hostOps9_3_fresh (W19 m ρ)),
    .host (hseg hostOps9_4 hostOps9_4_sub hostOps9_4_fresh (W20 m ρ)) ]

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) admR (pd m ρ) () cellOf_inj emb₁ defs₀ 𝒱r Lr lvr m ρ main (segsR m ρ)
    (fun c Q => by
      rewrite [main_chain c, Pipeline.Seg.run_eq_chain,
        show (segsR m ρ).map Pipeline.Seg.prog = [
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2,
          StableHlo.seq hostOps9_3,
          StableHlo.seq hostOps9_4 ] from rfl]
      exact .rfl)
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tend m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W21 m ρ c) ∗ Rr c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lr lvr fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W21_of_unwritten m ρ c main_arg0 (by decide)),
     (h c _ (mem_uc main_arg1 (by decide))).trans (W21_of_unwritten m ρ c main_arg1 (by decide)),
     (h c _ (mem_uc main_arg2 (by decide))).trans (W21_of_unwritten m ρ c main_arg2 (by decide)),
     (h c _ (mem_uc main_arg3 (by decide))).trans (W21_of_unwritten m ρ c main_arg3 (by decide)),
     (h c _ (mem_uc main_arg4 (by decide))).trans (W21_of_unwritten m ρ c main_arg4 (by decide)),
     (h c _ (mem_uc main_arg5 (by decide))).trans (W21_of_unwritten m ρ c main_arg5 (by decide)),
     (h c _ (mem_uc main_arg6 (by decide))).trans (W21_of_unwritten m ρ c main_arg6 (by decide)),
     (h c _ (mem_uc main_arg7 (by decide))).trans (W21_of_unwritten m ρ c main_arg7 (by decide))⟩)
    (run_all m ρ)

end Cert.Kernel.Rg

end
-- ==== Proof.KI.Cast.lean ====
import proofs.«146843_j38328288150260_1_alg».proof.Proof.Gen.KernelIdeal.Launch
import proofs.«146843_j38328288150260_1_alg».proof.Proof.Gen.KernelIdeal.Skeleton
import proofs.«146843_j38328288150260_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x2048 := Rect.unit (s := S1024x2048) ![0, 0] S1024x2048.size inb_S1024x2048_S1024x2048_0_0

def out0_1 (x0 : Vec F S1024x2048 .f32) : Vec F S1024x2048 .bf16 :=
  View.canon [⟨r0_0, k0_pay1 (View.ld x0 r0_0)⟩]

theorem cover0_1 (p0 : Vec F S1024x2048 .bf16) (y : S1024x2048.Idx) :
    ∃ pc ∈ ([⟨r0_0, p0⟩] : List (View.Piece (Elt F) S1024x2048 .bf16)), y ∈ pc.1.set :=
  View.cover_of_tiled [⟨r0_0, p0⟩] S1024x2048.size (by rfl) y

set_option maxHeartbeats 1000000 in

theorem sound_kernel0 (c : Dev nD) (E : Set ℕ) (i : grid0.Coords) (arg0 : Memref sig .tc .vmem S1024x2048 .f32) (harg0 : arg0.IsWhole) (arg1 : Memref sig .tc .vmem S1024x2048 .bf16) (harg1 : arg1.IsWhole)
    (x0 : Vec F S1024x2048 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__cast_kernel i arg0 harg0 arg1 harg1) K := by
  simp only [cc0__cast_kernel_eq_skeleton]; unfold cc0__cast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Rg

end
-- ==== Proof.KI.MatBody.lean ====
import proofs.«146843_j38328288150260_1_alg».proof.Proof.Gen.KernelIdeal.Launch
import proofs.«146843_j38328288150260_1_alg».proof.Proof.Gen.KernelIdeal.Skeleton
import proofs.«146843_j38328288150260_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rL : Rect S512x16384 := Rect.unit (s := S512x16384) ![0, 0] S512x16384.size inb_S512x16384_S512x16384_0_0
abbrev rZ : Rect S16384x32 := Rect.unit (s := S16384x32) ![0, 0] S16384x32.size inb_S16384x32_S16384x32_0_0
abbrev rO : Rect S512x32 := Rect.unit (s := S512x32) ![0, 0] S512x32.size inb_S512x32_S512x32_0_0

/-- The body of a matrix–block region over any payload `pay`: it stores `pay` of its two input blocks. -/
noncomputable def mvSkel (pay : Vec F S16384x32 .f32 → Vec F S512x16384 .bf16 → FVec F S512x32 .f32)
    (arg1 : Memref sig .tc .vmem S512x16384 .bf16) (harg1 : arg1.IsWhole) (arg2 : Memref sig .tc .vmem S16384x32 .f32) (harg2 : arg2.IsWhole) (arg3 : Memref sig .tc .vmem S512x32 .f32) (harg3 : arg3.IsWhole) :
    Prog (TpuEff nD τ sig (Elt F) Λ₀ .tc) PUnit := do
  let v0 : Vec F S16384x32 .f32 ← Prog.lift (.load arg2 rZ.toLoadRect (View.loadsAt_vmem h_S16384x32))
  let v2 : Vec F S512x16384 .bf16 ← Prog.lift (.load arg1 rL.toLoadRect (View.loadsAt_vmem h_S512x16384))
  let v5 : Vec F S512x32 .f32 ← Prog.lift (.load arg3 rO.toLoadRect (View.loadsAt_vmem h_S512x32))
  Prog.lift (.store arg3 rO (pay v0 v2) Finset.univ (View.stores_vmem_bits_univ h_S512x32 rfl) (.inl rfl))
  pure ⟨⟩

def mvOut (pay : Vec F S16384x32 .f32 → Vec F S512x16384 .bf16 → FVec F S512x32 .f32) (x0 : Vec F S512x16384 .bf16) (x1 : Vec F S16384x32 .f32) : Vec F S512x32 .f32 :=
  View.canon [⟨rO, pay (View.ld x1 rZ) (View.ld x0 rL)⟩]

theorem mvCover (p0 : Vec F S512x32 .f32) (y : S512x32.Idx) :
    ∃ pc ∈ ([⟨rO, p0⟩] : List (View.Piece (Elt F) S512x32 .f32)), y ∈ pc.1.set :=
  View.cover_of_tiled [⟨rO, p0⟩] S512x32.size (by rfl) y

set_option maxHeartbeats 1000000 in
theorem mvKernel (pay : Vec F S16384x32 .f32 → Vec F S512x16384 .bf16 → FVec F S512x32 .f32) (c : Dev nD) (E : Set ℕ) (arg0 : Memref sig .tc .vmem S512x16384 .bf16) (harg0 : arg0.IsWhole) (arg1 : Memref sig .tc .vmem S16384x32 .f32) (harg1 : arg1.IsWhole) (arg2 : Memref sig .tc .vmem S512x32 .f32) (harg2 : arg2.IsWhole)
    (x0 : Vec F S512x16384 .bf16) (x1 : Vec F S16384x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (mvOut pay x0 x1)) -∗ K ⟨⟩))
      ⊢ wp frame (wpE (defs₀ (F := F)) Variants.none c none) E (mvSkel pay arg0 harg0 arg1 harg1 arg2 harg2) K := by
  unfold mvSkel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (mvCover _)

/-- The same triple under a frame `Φ ∗ O`, up to the stated equations. -/
theorem mvBody (pay : Vec F S16384x32 .f32 → Vec F S512x16384 .bf16 → FVec F S512x32 .f32) (c : Dev nD)
    (arg0 : Memref sig .tc .vmem S512x16384 .bf16) (harg0 : arg0.IsWhole) (arg1 : Memref sig .tc .vmem S16384x32 .f32) (harg1 : arg1.IsWhole) (arg2 : Memref sig .tc .vmem S512x32 .f32) (harg2 : arg2.IsWhole)
    (prog : Prog (TpuEff nD τ sig (Elt F) Λ₀ .tc) PUnit) (hprog : prog = mvSkel pay arg0 harg0 arg1 harg1 arg2 harg2)
    (Φ O Φ' O' : sProp 𝕄) (b0 : Vec F S512x16384 .bf16 → Vec F S512x16384 .bf16) (b1 : Vec F S16384x32 .f32 → Vec F S16384x32 .f32)
    (b2 : Vec F S512x32 .f32 → Vec F S512x32 .f32) (x0 y0 : Vec F S512x16384 .bf16) (x1 y1 : Vec F S16384x32 .f32) (y2 : Vec F S512x32 .f32)
    (h0 : ∀ d, b0 d = x0) (h1 : ∀ d, b1 d = x1) (hΦ : Φ' = Φ) (hO : O' = O) (e0 : y0 = x0) (e1 : y1 = x1) (e2 : y2 = mvOut pay x0 x1) :
    iprop(Φ ∗ O ∗ (∃ d, owns (c : Thread nD τ) arg0 fullShare (b0 d)) ∗ (∃ d, owns (c : Thread nD τ) arg1 fullShare (b1 d))
        ∗ (∃ d, owns (c : Thread nD τ) arg2 fullShare (b2 d)))
      ⊢ wp frame (wpE (defs₀ (F := F)) Variants.none c none) Set.univ prog
          (fun _ => iprop(Φ' ∗ O' ∗ owns (c : Thread nD τ) arg0 fullShare y0 ∗ owns (c : Thread nD τ) arg1 fullShare y1
            ∗ owns (c : Thread nD τ) arg2 fullShare y2)) := by
  subst hprog hΦ hO e0 e1 e2
  simp only [h0, h1]
  iintro ⟨HΦ, Ho, ⟨%d0, H0⟩, ⟨%d1, H1⟩, ⟨%d2, H2⟩⟩
  iapply (mvKernel pay c Set.univ arg0 harg0 arg1 harg1 arg2 harg2 y0 y1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem skel1 (i a1 h1 a2 h2 a3 h3) : cc1__matmul_kernel (F := F) i a1 h1 a2 h2 a3 h3 = mvSkel k1_pay1 a1 h1 a2 h2 a3 h3 :=
  congrFun (congrFun (congrFun (congrFun (congrFun (congrFun (congrFun cc1__matmul_kernel_eq_skeleton i) a1) h1) a2) h2) a3) h3
theorem skel2 (i a1 h1 a2 h2 a3 h3) : cc2__matmul_kernel (F := F) i a1 h1 a2 h2 a3 h3 = mvSkel k2_pay1 a1 h1 a2 h2 a3 h3 :=
  congrFun (congrFun (congrFun (congrFun (congrFun (congrFun (congrFun cc2__matmul_kernel_eq_skeleton i) a1) h1) a2) h2) a3) h3
theorem skel3 (i a1 h1 a2 h2 a3 h3) : cc3__matmul_kernel (F := F) i a1 h1 a2 h2 a3 h3 = mvSkel k3_pay1 a1 h1 a2 h2 a3 h3 :=
  congrFun (congrFun (congrFun (congrFun (congrFun (congrFun (congrFun cc3__matmul_kernel_eq_skeleton i) a1) h1) a2) h2) a3) h3
theorem skel4 (i a1 h1 a2 h2 a3 h3) : cc4__matmul_kernel (F := F) i a1 h1 a2 h2 a3 h3 = mvSkel k4_pay1 a1 h1 a2 h2 a3 h3 :=
  congrFun (congrFun (congrFun (congrFun (congrFun (congrFun (congrFun cc4__matmul_kernel_eq_skeleton i) a1) h1) a2) h2) a3) h3
theorem skel5 (i a1 h1 a2 h2 a3 h3) : cc5__matmul_kernel (F := F) i a1 h1 a2 h2 a3 h3 = mvSkel k5_pay1 a1 h1 a2 h2 a3 h3 :=
  congrFun (congrFun (congrFun (congrFun (congrFun (congrFun (congrFun cc5__matmul_kernel_eq_skeleton i) a1) h1) a2) h2) a3) h3
theorem skel6 (i a1 h1 a2 h2 a3 h3) : cc6__matmul_kernel (F := F) i a1 h1 a2 h2 a3 h3 = mvSkel k6_pay1 a1 h1 a2 h2 a3 h3 :=
  congrFun (congrFun (congrFun (congrFun (congrFun (congrFun (congrFun cc6__matmul_kernel_eq_skeleton i) a1) h1) a2) h2) a3) h3
theorem skel7 (i a1 h1 a2 h2 a3 h3) : cc7__matmul_kernel (F := F) i a1 h1 a2 h2 a3 h3 = mvSkel k7_pay1 a1 h1 a2 h2 a3 h3 :=
  congrFun (congrFun (congrFun (congrFun (congrFun (congrFun (congrFun cc7__matmul_kernel_eq_skeleton i) a1) h1) a2) h2) a3) h3
theorem skel8 (i a1 h1 a2 h2 a3 h3) : cc8__matmul_kernel (F := F) i a1 h1 a2 h2 a3 h3 = mvSkel k8_pay1 a1 h1 a2 h2 a3 h3 :=
  congrFun (congrFun (congrFun (congrFun (congrFun (congrFun (congrFun cc8__matmul_kernel_eq_skeleton i) a1) h1) a2) h2) a3) h3

end Cert.KernelIdeal.Rg

end
-- ==== Proof.KI.Mats.lean ====
import proofs.«146843_j38328288150260_1_alg».proof.Proof.KI.MatBody

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Region 1: block `t` of array `w` as the region is entered. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => mvOut k1_pay1 (iblk1 V c 0 t) (iblk1 V c 1 t)
  Φ _ := Pipeline.ΦA spec1 c
  q _ := fullShare
  owed _ := 0

theorem body_obligation1 (c : Dev nD) : BodyObligation (dat1 (F := F) V c) (defs₀ (F := F)) Variants.none () Set.univ := fun t => by
  rw [bigSep_W1, bigSep_W1]
  exact mvBody k1_pay1 c (st1_0 t) _ (st1_1 t) _ (st1_2 t) _ _
    (skel1 (grid1.coords t) _ (hstage1_0 ((cfg1.slots t 0).cast nbuf1_0)) _ (hstage1_1 ((cfg1.slots t 1).cast nbuf1_1)) _ (hstage1_2 ((cfg1.slots t 2).cast nbuf1_2)))
    _ _ _ _ ((dat1 V c).before 0 t) ((dat1 V c).before 1 t) ((dat1 V c).before 2 t) (iblk1 V c 0 t) _ (iblk1 V c 1 t) _ _
    ((dat1 V c).before_in_eq_fetched 0 rfl (fun _ => rfl) (fun _ _ _ => rfl) (fun _ => rfl) t)
    ((dat1 V c).before_in_eq_fetched 1 rfl (fun _ => rfl) (fun _ _ _ => rfl) (fun _ => rfl) t) rfl rfl rfl rfl rfl

/-- Region 2: block `t` of array `w` as the region is entered. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => mvOut k2_pay1 (iblk2 V c 0 t) (iblk2 V c 1 t)
  Φ _ := Pipeline.ΦA spec2 c
  q _ := fullShare
  owed _ := 0

theorem body_obligation2 (c : Dev nD) : BodyObligation (dat2 (F := F) V c) (defs₀ (F := F)) Variants.none () Set.univ := fun t => by
  rw [bigSep_W2, bigSep_W2]
  exact mvBody k2_pay1 c (st2_0 t) _ (st2_1 t) _ (st2_2 t) _ _
    (skel2 (grid2.coords t) _ (hstage2_0 ((cfg2.slots t 0).cast nbuf2_0)) _ (hstage2_1 ((cfg2.slots t 1).cast nbuf2_1)) _ (hstage2_2 ((cfg2.slots t 2).cast nbuf2_2)))
    _ _ _ _ ((dat2 V c).before 0 t) ((dat2 V c).before 1 t) ((dat2 V c).before 2 t) (iblk2 V c 0 t) _ (iblk2 V c 1 t) _ _
    ((dat2 V c).before_in_eq_fetched 0 rfl (fun _ => rfl) (fun _ _ _ => rfl) (fun _ => rfl) t)
    ((dat2 V c).before_in_eq_fetched 1 rfl (fun _ => rfl) (fun _ _ _ => rfl) (fun _ => rfl) t) rfl rfl rfl rfl rfl

/-- Region 3: block `t` of array `w` as the region is entered. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => mvOut k3_pay1 (iblk3 V c 0 t) (iblk3 V c 1 t)
  Φ _ := Pipeline.ΦA spec3 c
  q _ := fullShare
  owed _ := 0

theorem body_obligation3 (c : Dev nD) : BodyObligation (dat3 (F := F) V c) (defs₀ (F := F)) Variants.none () Set.univ := fun t => by
  rw [bigSep_W3, bigSep_W3]
  exact mvBody k3_pay1 c (st3_0 t) _ (st3_1 t) _ (st3_2 t) _ _
    (skel3 (grid3.coords t) _ (hstage3_0 ((cfg3.slots t 0).cast nbuf3_0)) _ (hstage3_1 ((cfg3.slots t 1).cast nbuf3_1)) _ (hstage3_2 ((cfg3.slots t 2).cast nbuf3_2)))
    _ _ _ _ ((dat3 V c).before 0 t) ((dat3 V c).before 1 t) ((dat3 V c).before 2 t) (iblk3 V c 0 t) _ (iblk3 V c 1 t) _ _
    ((dat3 V c).before_in_eq_fetched 0 rfl (fun _ => rfl) (fun _ _ _ => rfl) (fun _ => rfl) t)
    ((dat3 V c).before_in_eq_fetched 1 rfl (fun _ => rfl) (fun _ _ _ => rfl) (fun _ => rfl) t) rfl rfl rfl rfl rfl

/-- Region 4: block `t` of array `w` as the region is entered. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => mvOut k4_pay1 (iblk4 V c 0 t) (iblk4 V c 1 t)
  Φ _ := Pipeline.ΦA spec4 c
  q _ := fullShare
  owed _ := 0

theorem body_obligation4 (c : Dev nD) : BodyObligation (dat4 (F := F) V c) (defs₀ (F := F)) Variants.none () Set.univ := fun t => by
  rw [bigSep_W4, bigSep_W4]
  exact mvBody k4_pay1 c (st4_0 t) _ (st4_1 t) _ (st4_2 t) _ _
    (skel4 (grid4.coords t) _ (hstage4_0 ((cfg4.slots t 0).cast nbuf4_0)) _ (hstage4_1 ((cfg4.slots t 1).cast nbuf4_1)) _ (hstage4_2 ((cfg4.slots t 2).cast nbuf4_2)))
    _ _ _ _ ((dat4 V c).before 0 t) ((dat4 V c).before 1 t) ((dat4 V c).before 2 t) (iblk4 V c 0 t) _ (iblk4 V c 1 t) _ _
    ((dat4 V c).before_in_eq_fetched 0 rfl (fun _ => rfl) (fun _ _ _ => rfl) (fun _ => rfl) t)
    ((dat4 V c).before_in_eq_fetched 1 rfl (fun _ => rfl) (fun _ _ _ => rfl) (fun _ => rfl) t) rfl rfl rfl rfl rfl

/-- Region 5: block `t` of array `w` as the region is entered. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => mvOut k5_pay1 (iblk5 V c 0 t) (iblk5 V c 1 t)
  Φ _ := Pipeline.ΦA spec5 c
  q _ := fullShare
  owed _ := 0

theorem body_obligation5 (c : Dev nD) : BodyObligation (dat5 (F := F) V c) (defs₀ (F := F)) Variants.none () Set.univ := fun t => by
  rw [bigSep_W5, bigSep_W5]
  exact mvBody k5_pay1 c (st5_0 t) _ (st5_1 t) _ (st5_2 t) _ _
    (skel5 (grid5.coords t) _ (hstage5_0 ((cfg5.slots t 0).cast nbuf5_0)) _ (hstage5_1 ((cfg5.slots t 1).cast nbuf5_1)) _ (hstage5_2 ((cfg5.slots t 2).cast nbuf5_2)))
    _ _ _ _ ((dat5 V c).before 0 t) ((dat5 V c).before 1 t) ((dat5 V c).before 2 t) (iblk5 V c 0 t) _ (iblk5 V c 1 t) _ _
    ((dat5 V c).before_in_eq_fetched 0 rfl (fun _ => rfl) (fun _ _ _ => rfl) (fun _ => rfl) t)
    ((dat5 V c).before_in_eq_fetched 1 rfl (fun _ => rfl) (fun _ _ _ => rfl) (fun _ => rfl) t) rfl rfl rfl rfl rfl

/-- Region 6: block `t` of array `w` as the region is entered. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => mvOut k6_pay1 (iblk6 V c 0 t) (iblk6 V c 1 t)
  Φ _ := Pipeline.ΦA spec6 c
  q _ := fullShare
  owed _ := 0

theorem body_obligation6 (c : Dev nD) : BodyObligation (dat6 (F := F) V c) (defs₀ (F := F)) Variants.none () Set.univ := fun t => by
  rw [bigSep_W6, bigSep_W6]
  exact mvBody k6_pay1 c (st6_0 t) _ (st6_1 t) _ (st6_2 t) _ _
    (skel6 (grid6.coords t) _ (hstage6_0 ((cfg6.slots t 0).cast nbuf6_0)) _ (hstage6_1 ((cfg6.slots t 1).cast nbuf6_1)) _ (hstage6_2 ((cfg6.slots t 2).cast nbuf6_2)))
    _ _ _ _ ((dat6 V c).before 0 t) ((dat6 V c).before 1 t) ((dat6 V c).before 2 t) (iblk6 V c 0 t) _ (iblk6 V c 1 t) _ _
    ((dat6 V c).before_in_eq_fetched 0 rfl (fun _ => rfl) (fun _ _ _ => rfl) (fun _ => rfl) t)
    ((dat6 V c).before_in_eq_fetched 1 rfl (fun _ => rfl) (fun _ _ _ => rfl) (fun _ => rfl) t) rfl rfl rfl rfl rfl

/-- Region 7: block `t` of array `w` as the region is entered. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => mvOut k7_pay1 (iblk7 V c 0 t) (iblk7 V c 1 t)
  Φ _ := Pipeline.ΦA spec7 c
  q _ := fullShare
  owed _ := 0

theorem body_obligation7 (c : Dev nD) : BodyObligation (dat7 (F := F) V c) (defs₀ (F := F)) Variants.none () Set.univ := fun t => by
  rw [bigSep_W7, bigSep_W7]
  exact mvBody k7_pay1 c (st7_0 t) _ (st7_1 t) _ (st7_2 t) _ _
    (skel7 (grid7.coords t) _ (hstage7_0 ((cfg7.slots t 0).cast nbuf7_0)) _ (hstage7_1 ((cfg7.slots t 1).cast nbuf7_1)) _ (hstage7_2 ((cfg7.slots t 2).cast nbuf7_2)))
    _ _ _ _ ((dat7 V c).before 0 t) ((dat7 V c).before 1 t) ((dat7 V c).before 2 t) (iblk7 V c 0 t) _ (iblk7 V c 1 t) _ _
    ((dat7 V c).before_in_eq_fetched 0 rfl (fun _ => rfl) (fun _ _ _ => rfl) (fun _ => rfl) t)
    ((dat7 V c).before_in_eq_fetched 1 rfl (fun _ => rfl) (fun _ _ _ => rfl) (fun _ => rfl) t) rfl rfl rfl rfl rfl

/-- Region 8: block `t` of array `w` as the region is entered. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => mvOut k8_pay1 (iblk8 V c 0 t) (iblk8 V c 1 t)
  Φ _ := Pipeline.ΦA spec8 c
  q _ := fullShare
  owed _ := 0

theorem body_obligation8 (c : Dev nD) : BodyObligation (dat8 (F := F) V c) (defs₀ (F := F)) Variants.none () Set.univ := fun t => by
  rw [bigSep_W8, bigSep_W8]
  exact mvBody k8_pay1 c (st8_0 t) _ (st8_1 t) _ (st8_2 t) _ _
    (skel8 (grid8.coords t) _ (hstage8_0 ((cfg8.slots t 0).cast nbuf8_0)) _ (hstage8_1 ((cfg8.slots t 1).cast nbuf8_1)) _ (hstage8_2 ((cfg8.slots t 2).cast nbuf8_2)))
    _ _ _ _ ((dat8 V c).before 0 t) ((dat8 V c).before 1 t) ((dat8 V c).before 2 t) (iblk8 V c 0 t) _ (iblk8 V c 1 t) _ _
    ((dat8 V c).before_in_eq_fetched 0 rfl (fun _ => rfl) (fun _ _ _ => rfl) (fun _ => rfl) t)
    ((dat8 V c).before_in_eq_fetched 1 rfl (fun _ => rfl) (fun _ _ _ => rfl) (fun _ => rfl) t) rfl rfl rfl rfl rfl

end Cert.KernelIdeal.Rg

end
-- ==== Proof.KI.Fold.lean ====
import proofs.«146843_j38328288150260_1_alg».proof.Proof.KI.Cast
import proofs.«146843_j38328288150260_1_alg».proof.Proof.KI.Mats
import proofs.«146843_j38328288150260_1_alg».proof.Proof.Gen.KernelIdeal.Regions

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A region changes no array but its outputs: each of its input arrays ends as it began. -/
theorem keep_of_in {cfg : Cfg sig Λ₀} (hinj : Function.Injective (Pipeline.arrRef cfg.spec)) (c : Dev nD) (W : Valuation τ sig (Elt F))
    (dat : Dat τ (Elt F) Unit ℕ (UR sig nD τ) ℕ cfg c) (hA : ∀ w, dat.A w = W (Proc.devRef .tc (Pipeline.arrRef cfg.spec w)))
    (outs : List (Ref sig .tc)) (hout : ∀ w, (cfg.win w).isOut = true → Pipeline.arrRef cfg.spec w ∈ outs) (r : Ref sig .tc) (hr : r ∉ outs) :
    Pipeline.withArrays cfg.spec c W (fun w => dat.arrAt w cfg.N) (Proc.devRef .tc r) = W (Proc.devRef .tc r) := by
  by_cases h : ∃ w, Pipeline.arrRef cfg.spec w = r
  · obtain ⟨w, rfl⟩ := h
    have hin : (cfg.win w).isOut = false := by
      cases hw : (cfg.win w).isOut
      · rfl
      · exact absurd (hout w hw) hr
    rw [Pipeline.withArrays_arr cfg.spec hinj, dat.arrAt_in w hin, hA]
  · exact Pipeline.withArrays_of_ne cfg.spec c _ _ r fun w e => h ⟨w, e⟩

/-- `W j`: the contents of core `c`'s arrays before item `j` of @main; `U j` the same over the TensorCore's references. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b

def W1 (c : Dev nD) : Valuation τ sig (Elt F) :=
  Pipeline.withArrays spec0 c (W0 m ρ c) fun w => (dat0 (U0 m ρ) c).arrAt w cfg0.N
abbrev U1 : (c : Dev nD) → (b : Ref sig .tc) → Buf (Elt F) ((c : Thread nD τ).loc b) := fun c b => W1 m ρ c b
theorem W1_keep (c : Dev nD) (r : Ref sig .tc) (h : r ∉ [main_v0]) : W1 m ρ c (Proc.devRef .tc r) = W0 m ρ c (Proc.devRef .tc r) :=
  keep_of_in launch0.win.arr_inj c _ (dat0 (U0 m ρ) c) (fun _ => rfl) _ (by decide) r h

def W2 (c : Dev nD) : Valuation τ sig (Elt F) :=
  Pipeline.withArrays spec1 c (W1 m ρ c) fun w => (dat1 (U1 m ρ) c).arrAt w cfg1.N
theorem W2_keep (c : Dev nD) (r : Ref sig .tc) (h : r ∉ [main_v1]) :
    W2 m ρ c (Proc.devRef .tc r) = W1 m ρ c (Proc.devRef .tc r) :=
  keep_of_in launch1.win.arr_inj c _ (dat1 (U1 m ρ) c) (fun _ => rfl) _ (by decide) r h
abbrev W3 : Dev nD → Valuation τ sig (Elt F) := fun c => StableHlo.after hostOps2 (W2 m ρ c)
abbrev U3 : (c : Dev nD) → (b : Ref sig .tc) → Buf (Elt F) ((c : Thread nD τ).loc b) := fun c b => W3 m ρ c b
theorem W3_keep (c : Dev nD) (r : Ref sig .tc) (h : r ∉ hostOps2_W) :
    W3 m ρ c (Proc.devRef .tc r) = W2 m ρ c (Proc.devRef .tc r) :=
  StableHlo.after_of_writes_sub hostOps2 _ hostOps2_writes h

def W4 (c : Dev nD) : Valuation τ sig (Elt F) :=
  Pipeline.withArrays spec2 c (W3 m ρ c) fun w => (dat2 (U3 m ρ) c).arrAt w cfg2.N
theorem W4_keep (c : Dev nD) (r : Ref sig .tc) (h : r ∉ [main_v12]) :
    W4 m ρ c (Proc.devRef .tc r) = W3 m ρ c (Proc.devRef .tc r) :=
  keep_of_in launch2.win.arr_inj c _ (dat2 (U3 m ρ) c) (fun _ => rfl) _ (by decide) r h
abbrev W5 : Dev nD → Valuation τ sig (Elt F) := fun c => StableHlo.after hostOps3 (W4 m ρ c)
abbrev U5 : (c : Dev nD) → (b : Ref sig .tc) → Buf (Elt F) ((c : Thread nD τ).loc b) := fun c b => W5 m ρ c b
theorem W5_keep (c : Dev nD) (r : Ref sig .tc) (h : r ∉ hostOps3_W) :
    W5 m ρ c (Proc.devRef .tc r) = W4 m ρ c (Proc.devRef .tc r) :=
  StableHlo.after_of_writes_sub hostOps3 _ hostOps3_writes h

def W6 (c : Dev nD) : Valuation τ sig (Elt F) :=
  Pipeline.withArrays spec3 c (W5 m ρ c) fun w => (dat3 (U5 m ρ) c).arrAt w cfg3.N
theorem W6_keep (c : Dev nD) (r : Ref sig .tc) (h : r ∉ [main_v22]) :
    W6 m ρ c (Proc.devRef .tc r) = W5 m ρ c (Proc.devRef .tc r) :=
  keep_of_in launch3.win.arr_inj c _ (dat3 (U5 m ρ) c) (fun _ => rfl) _ (by decide) r h
abbrev W7 : Dev nD → Valuation τ sig (Elt F) := fun c => StableHlo.after hostOps4 (W6 m ρ c)
abbrev U7 : (c : Dev nD) → (b : Ref sig .tc) → Buf (Elt F) ((c : Thread nD τ).loc b) := fun c b => W7 m ρ c b
theorem W7_keep (c : Dev nD) (r : Ref sig .tc) (h : r ∉ hostOps4_W) :
    W7 m ρ c (Proc.devRef .tc r) = W6 m ρ c (Proc.devRef .tc r) :=
  StableHlo.after_of_writes_sub hostOps4 _ hostOps4_writes h

def W8 (c : Dev nD) : Valuation τ sig (Elt F) :=
  Pipeline.withArrays spec4 c (W7 m ρ c) fun w => (dat4 (U7 m ρ) c).arrAt w cfg4.N
theorem W8_keep (c : Dev nD) (r : Ref sig .tc) (h : r ∉ [main_v32]) :
    W8 m ρ c (Proc.devRef .tc r) = W7 m ρ c (Proc.devRef .tc r) :=
  keep_of_in launch4.win.arr_inj c _ (dat4 (U7 m ρ) c) (fun _ => rfl) _ (by decide) r h
abbrev W9 : Dev nD → Valuation τ sig (Elt F) := fun c => StableHlo.after hostOps5 (W8 m ρ c)
abbrev U9 : (c : Dev nD) → (b : Ref sig .tc) → Buf (Elt F) ((c : Thread nD τ).loc b) := fun c b => W9 m ρ c b
theorem W9_keep (c : Dev nD) (r : Ref sig .tc) (h : r ∉ hostOps5_W) :
    W9 m ρ c (Proc.devRef .tc r) = W8 m ρ c (Proc.devRef .tc r) :=
  StableHlo.after_of_writes_sub hostOps5 _ hostOps5_writes h

def W10 (c : Dev nD) : Valuation τ sig (Elt F) :=
  Pipeline.withArrays spec5 c (W9 m ρ c) fun w => (dat5 (U9 m ρ) c).arrAt w cfg5.N
theorem W10_keep (c : Dev nD) (r : Ref sig .tc) (h : r ∉ [main_v42]) :
    W10 m ρ c (Proc.devRef .tc r) = W9 m ρ c (Proc.devRef .tc r) :=
  keep_of_in launch5.win.arr_inj c _ (dat5 (U9 m ρ) c) (fun _ => rfl) _ (by decide) r h
abbrev W11 : Dev nD → Valuation τ sig (Elt F) := fun c => StableHlo.after hostOps6 (W10 m ρ c)
abbrev U11 : (c : Dev nD) → (b : Ref sig .tc) → Buf (Elt F) ((c : Thread nD τ).loc b) := fun c b => W11 m ρ c b
theorem W11_keep (c : Dev nD) (r : Ref sig .tc) (h : r ∉ hostOps6_W) :
    W11 m ρ c (Proc.devRef .tc r) = W10 m ρ c (Proc.devRef .tc r) :=
  StableHlo.after_of_writes_sub hostOps6 _ hostOps6_writes h

def W12 (c : Dev nD) : Valuation τ sig (Elt F) :=
  Pipeline.withArrays spec6 c (W11 m ρ c) fun w => (dat6 (U11 m ρ) c).arrAt w cfg6.N
theorem W12_keep (c : Dev nD) (r : Ref sig .tc) (h : r ∉ [main_v52]) :
    W12 m ρ c (Proc.devRef .tc r) = W11 m ρ c (Proc.devRef .tc r) :=
  keep_of_in launch6.win.arr_inj c _ (dat6 (U11 m ρ) c) (fun _ => rfl) _ (by decide) r h
abbrev W13 : Dev nD → Valuation τ sig (Elt F) := fun c => StableHlo.after hostOps7 (W12 m ρ c)
abbrev U13 : (c : Dev nD) → (b : Ref sig .tc) → Buf (Elt F) ((c : Thread nD τ).loc b) := fun c b => W13 m ρ c b
theorem W13_keep (c : Dev nD) (r : Ref sig .tc) (h : r ∉ hostOps7_W) :
    W13 m ρ c (Proc.devRef .tc r) = W12 m ρ c (Proc.devRef .tc r) :=
  StableHlo.after_of_writes_sub hostOps7 _ hostOps7_writes h

def W14 (c : Dev nD) : Valuation τ sig (Elt F) :=
  Pipeline.withArrays spec7 c (W13 m ρ c) fun w => (dat7 (U13 m ρ) c).arrAt w cfg7.N
theorem W14_keep (c : Dev nD) (r : Ref sig .tc) (h : r ∉ [main_v62]) :
    W14 m ρ c (Proc.devRef .tc r) = W13 m ρ c (Proc.devRef .tc r) :=
  keep_of_in launch7.win.arr_inj c _ (dat7 (U13 m ρ) c) (fun _ => rfl) _ (by decide) r h
abbrev W15 : Dev nD → Valuation τ sig (Elt F) := fun c => StableHlo.after hostOps8 (W14 m ρ c)
abbrev U15 : (c : Dev nD) → (b : Ref sig .tc) → Buf (Elt F) ((c : Thread nD τ).loc b) := fun c b => W15 m ρ c b
theorem W15_keep (c : Dev nD) (r : Ref sig .tc) (h : r ∉ hostOps8_W) :
    W15 m ρ c (Proc.devRef .tc r) = W14 m ρ c (Proc.devRef .tc r) :=
  StableHlo.after_of_writes_sub hostOps8 _ hostOps8_writes h

def W16 (c : Dev nD) : Valuation τ sig (Elt F) :=
  Pipeline.withArrays spec8 c (W15 m ρ c) fun w => (dat8 (U15 m ρ) c).arrAt w cfg8.N
theorem W16_keep (c : Dev nD) (r : Ref sig .tc) (h : r ∉ [main_v72]) :
    W16 m ρ c (Proc.devRef .tc r) = W15 m ρ c (Proc.devRef .tc r) :=
  keep_of_in launch8.win.arr_inj c _ (dat8 (U15 m ρ) c) (fun _ => rfl) _ (by decide) r h
abbrev W17 : Dev nD → Valuation τ sig (Elt F) := fun c => StableHlo.after hostOps9 (W16 m ρ c)
abbrev U17 : (c : Dev nD) → (b : Ref sig .tc) → Buf (Elt F) ((c : Thread nD τ).loc b) := fun c b => W17 m ρ c b
theorem W17_keep (c : Dev nD) (r : Ref sig .tc) (h : r ∉ hostOps9_W) :
    W17 m ρ c (Proc.devRef .tc r) = W16 m ρ c (Proc.devRef .tc r) :=
  StableHlo.after_of_writes_sub hostOps9 _ hostOps9_writes h

abbrev W18 : Dev nD → Valuation τ sig (Elt F) := fun c => StableHlo.after hostOps9_1 (W17 m ρ c)
theorem W18_keep (c : Dev nD) (r : Ref sig .tc) (h : r ∉ hostOps9_1_W) :
    W18 m ρ c (Proc.devRef .tc r) = W17 m ρ c (Proc.devRef .tc r) :=
  StableHlo.after_of_writes_sub hostOps9_1 _ hostOps9_1_writes h

abbrev W19 : Dev nD → Valuation τ sig (Elt F) := fun c => StableHlo.after hostOps9_2 (W18 m ρ c)
theorem W19_keep (c : Dev nD) (r : Ref sig .tc) (h : r ∉ hostOps9_2_W) :
    W19 m ρ c (Proc.devRef .tc r) = W18 m ρ c (Proc.devRef .tc r) :=
  StableHlo.after_of_writes_sub hostOps9_2 _ hostOps9_2_writes h

abbrev W20 : Dev nD → Valuation τ sig (Elt F) := fun c => StableHlo.after hostOps9_3 (W19 m ρ c)
theorem W20_keep (c : Dev nD) (r : Ref sig .tc) (h : r ∉ hostOps9_3_W) :
    W20 m ρ c (Proc.devRef .tc r) = W19 m ρ c (Proc.devRef .tc r) :=
  StableHlo.after_of_writes_sub hostOps9_3 _ hostOps9_3_writes h

abbrev W21 : Dev nD → Valuation τ sig (Elt F) := fun c => StableHlo.after hostOps9_4 (W20 m ρ c)
theorem W21_keep (c : Dev nD) (r : Ref sig .tc) (h : r ∉ hostOps9_4_W) :
    W21 m ρ c (Proc.devRef .tc r) = W20 m ρ c (Proc.devRef .tc r) :=
  StableHlo.after_of_writes_sub hostOps9_4 _ hostOps9_4_writes h

/-- The references some item of @main writes. -/
abbrev written : List (Ref sig .tc) :=
  [main_v0, main_v1, main_v12, main_v22, main_v32, main_v42, main_v52, main_v62, main_v72] ++ hostOps2_W ++ hostOps3_W ++ hostOps4_W ++ hostOps5_W ++ hostOps6_W ++ hostOps7_W ++ hostOps8_W
    ++ hostOps9_W ++ hostOps9_1_W ++ hostOps9_2_W ++ hostOps9_3_W ++ hostOps9_4_W

/-- A reference no item writes holds at the end what it held at the launch. -/
theorem W21_of_unwritten (c : Dev nD) (r : Ref sig .tc) (h : r ∉ written) :
    W21 m ρ c (Proc.devRef .tc r) = m ((c : Thread nD τ).loc r) := by
  have hm : ∀ l : List (Ref sig .tc), (∀ x ∈ l, x ∈ written) → r ∉ l := fun l hl hr => h (hl r hr)
  rw [W21_keep m ρ c r (hm _ (by decide)), W20_keep m ρ c r (hm _ (by decide)), W19_keep m ρ c r (hm _ (by decide)),
    W18_keep m ρ c r (hm _ (by decide)), W17_keep m ρ c r (hm _ (by decide)), W16_keep m ρ c r (hm _ (by decide)),
    W15_keep m ρ c r (hm _ (by decide)), W14_keep m ρ c r (hm _ (by decide)), W13_keep m ρ c r (hm _ (by decide)),
    W12_keep m ρ c r (hm _ (by decide)), W11_keep m ρ c r (hm _ (by decide)), W10_keep m ρ c r (hm _ (by decide)),
    W9_keep m ρ c r (hm _ (by decide)), W8_keep m ρ c r (hm _ (by decide)), W7_keep m ρ c r (hm _ (by decide)),
    W6_keep m ρ c r (hm _ (by decide)), W5_keep m ρ c r (hm _ (by decide)), W4_keep m ρ c r (hm _ (by decide)),
    W3_keep m ρ c r (hm _ (by decide)), W2_keep m ρ c r (hm _ (by decide)), W1_keep m ρ c r (hm _ (by decide))]

end Cert.KernelIdeal.Rg

end
-- ==== Proof.KI.Data.lean ====
import proofs.«146843_j38328288150260_1_alg».proof.Proof.KI.Fold

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev admR : (p : Fin 9) → (pcfgs (F := F) p).Adm := fun p => (cfgs p).toPCfg_adm

def pd : (p : Fin 9) → (c : Dev nD) → Dat τ (Elt F) Unit ℕ (UR sig nD τ) ℕ (Pipeline.pin (pcfgs (F := F)) admR p) c
  | ⟨0, _⟩ => fun c => dat0 (U0 m ρ) c
  | ⟨1, _⟩ => fun c => dat1 (U1 m ρ) c
  | ⟨2, _⟩ => fun c => dat2 (U3 m ρ) c
  | ⟨3, _⟩ => fun c => dat3 (U5 m ρ) c
  | ⟨4, _⟩ => fun c => dat4 (U7 m ρ) c
  | ⟨5, _⟩ => fun c => dat5 (U9 m ρ) c
  | ⟨6, _⟩ => fun c => dat6 (U11 m ρ) c
  | ⟨7, _⟩ => fun c => dat7 (U13 m ρ) c
  | ⟨8, _⟩ => fun c => dat8 (U15 m ρ) c

abbrev 𝒱r : Variants := Variants.none

abbrev Lr : GSem nD τ sig → Finset Unit := fun _ => ∅
abbrev lvr : GSem nD τ sig → Unit → ℕ := fun _ _ => 0

abbrev Rr (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (W21 m ρ c) ∗ ∃ r, prngReg c r)

end Cert.KernelIdeal.Rg

end
-- ==== Proof.KI.Regs.lean ====
import proofs.«146843_j38328288150260_1_alg».proof.Proof.KI.Data

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Pipeline `p` as a segment of the run, from the arrays at `Win` to the arrays at `Wout`: `Win` with `p`'s arrays at the
    region's results. -/
def mkReg (p : Fin 9) (L : Pipeline.LaunchFacts (nD := nD) (τ := τ) cfgs p) (Win Wout : Dev nD → Valuation τ sig (Elt F))
    (hb : ∀ c, BodyObligation (pd m ρ p c) (defs₀ (F := F)) 𝒱r () Set.univ)
    (hA : ∀ c w, (pd m ρ p c).A w = Win c (Proc.devRef .tc (Pipeline.arrRef (pcfgs (F := F) p).spec w)))
    (hq : ∀ c w, (pd m ρ p c).q w = fullShare) (ho : ∀ c t, (pd m ρ p c).owed t = 0)
    (hrec : ∀ c t, (pd m ρ p c).recorded t = Set.univ)
    (hΦ : ∀ c t, (pd m ρ p c).Φ t = Pipeline.ΦA (pcfgs (F := F) p).spec c)
    (hW : ∀ c, Wout c = Pipeline.withArrays (pcfgs (F := F) p).spec c (Win c) fun w => (pd m ρ p c).arrAt w (cfgs p).N) :
    Pipeline.RegionSeg (pcfgs (F := F)) admR (pd m ρ) () defs₀ 𝒱r Lr lvr p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ Lr lvr p ho
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop(∃ r, prngReg c r)
  Y c := iprop(∃ r, prngReg c r)
  Z c := Pipeline.unscopedRest (Ix := Unit) (Name := ℕ) (U := UR sig nD τ) (Lvl := ℕ) (pcfgs (F := F) p).spec c fun b => Win c (Proc.devRef .tc b)
  hentry c := by
    rw [Pipeline.ownSems0_none]
    have hsplit := Pipeline.arrays_of_unscopedBufs (p := p) (pcfgs (F := F)) admR (pd m ρ) L.win L.arr_whole c
      ((pd m ρ p c).share_full (hq c)) (fun b => Win c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c 0]
      icases HO with ⟨%W, HO⟩; iexists W; isplitr; · ipureintro; exact fun _ _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) admR (Ix := Unit) (Name := ℕ) (U := UR sig nD τ) (Lvl := ℕ)
      L.win L.arr_whole c (pd m ρ) ((pd m ρ p c).share_full (hq c))
      (fun b => Win c (Proc.devRef .tc b)) (fun b => Wout c (Proc.devRef .tc b)) ((pd m ρ p c).arrAt · (cfgs p).N)
      (fun w => by rw [hW c]; exact (Pipeline.withArrays_arr (pcfgs (F := F) p).spec L.win.arr_inj c (Win c) (fun w => (pd m ρ p c).arrAt w (cfgs p).N) w).symm)
      (fun b hb => by rw [hW c]; exact Pipeline.withArrays_of_ne (pcfgs (F := F) p).spec c (Win c) (fun w => (pd m ρ p c).arrAt w (cfgs p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c _]
    icases HO with ⟨%W, -, HO⟩; iexists W; iexact HO

def reg0 := mkReg m ρ 0 launch0 (W0 m ρ) (W1 m ρ) (body_obligation0 (U0 m ρ)) (fun _ _ => rfl) (fun _ _ => rfl) (fun _ _ => rfl) (fun _ _ => rfl) (fun _ _ => rfl) (fun _ => rfl)
def reg1 := mkReg m ρ 1 launch1 (W1 m ρ) (W2 m ρ) (body_obligation1 (U1 m ρ)) (fun _ _ => rfl) (fun _ _ => rfl) (fun _ _ => rfl) (fun _ _ => rfl) (fun _ _ => rfl) (fun _ => rfl)
def reg2 := mkReg m ρ 2 launch2 (W3 m ρ) (W4 m ρ) (body_obligation2 (U3 m ρ)) (fun _ _ => rfl) (fun _ _ => rfl) (fun _ _ => rfl) (fun _ _ => rfl) (fun _ _ => rfl) (fun _ => rfl)
def reg3 := mkReg m ρ 3 launch3 (W5 m ρ) (W6 m ρ) (body_obligation3 (U5 m ρ)) (fun _ _ => rfl) (fun _ _ => rfl) (fun _ _ => rfl) (fun _ _ => rfl) (fun _ _ => rfl) (fun _ => rfl)
def reg4 := mkReg m ρ 4 launch4 (W7 m ρ) (W8 m ρ) (body_obligation4 (U7 m ρ)) (fun _ _ => rfl) (fun _ _ => rfl) (fun _ _ => rfl) (fun _ _ => rfl) (fun _ _ => rfl) (fun _ => rfl)
def reg5 := mkReg m ρ 5 launch5 (W9 m ρ) (W10 m ρ) (body_obligation5 (U9 m ρ)) (fun _ _ => rfl) (fun _ _ => rfl) (fun _ _ => rfl) (fun _ _ => rfl) (fun _ _ => rfl) (fun _ => rfl)
def reg6 := mkReg m ρ 6 launch6 (W11 m ρ) (W12 m ρ) (body_obligation6 (U11 m ρ)) (fun _ _ => rfl) (fun _ _ => rfl) (fun _ _ => rfl) (fun _ _ => rfl) (fun _ _ => rfl) (fun _ => rfl)
def reg7 := mkReg m ρ 7 launch7 (W13 m ρ) (W14 m ρ) (body_obligation7 (U13 m ρ)) (fun _ _ => rfl) (fun _ _ => rfl) (fun _ _ => rfl) (fun _ _ => rfl) (fun _ _ => rfl) (fun _ => rfl)
def reg8 := mkReg m ρ 8 launch8 (W15 m ρ) (W16 m ρ) (body_obligation8 (U15 m ρ)) (fun _ _ => rfl) (fun _ _ => rfl) (fun _ _ => rfl) (fun _ _ => rfl) (fun _ _ => rfl) (fun _ => rfl)

end Cert.KernelIdeal.Rg

end
-- ==== Proof.KI.Run.lean ====
import proofs.«146843_j38328288150260_1_alg».proof.Proof.KI.Regs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segsR : List (Pipeline.Seg (pcfgs (F := F)) admR (pd m ρ) () defs₀ 𝒱r Lr lvr) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)),
    .region (reg3 m ρ),
    .host (hseg hostOps4 hostOps4_sub hostOps4_fresh (W6 m ρ)),
    .region (reg4 m ρ),
    .host (hseg hostOps5 hostOps5_sub hostOps5_fresh (W8 m ρ)),
    .region (reg5 m ρ),
    .host (hseg hostOps6 hostOps6_sub hostOps6_fresh (W10 m ρ)),
    .region (reg6 m ρ),
    .host (hseg hostOps7 hostOps7_sub hostOps7_fresh (W12 m ρ)),
    .region (reg7 m ρ),
    .host (hseg hostOps8 hostOps8_sub hostOps8_fresh (W14 m ρ)),
    .region (reg8 m ρ),
    .host (hseg hostOps9 hostOps9_sub hostOps9_fresh (W16 m ρ)),
    .host (hseg hostOps9_1 hostOps9_1_sub hostOps9_1_fresh (W17 m ρ)),
    .host (hseg hostOps9_2 hostOps9_2_sub hostOps9_2_fresh (W18 m ρ)),
    .host (hseg hostOps9_3 hostOps9_3_sub hostOps9_3_fresh (W19 m ρ)),
    .host (hseg hostOps9_4 hostOps9_4_sub hostOps9_4_fresh (W20 m ρ)) ]

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) admR (pd m ρ) () cellOf_inj emb₁ defs₀ 𝒱r Lr lvr m ρ main (segsR m ρ)
    (fun c Q => by
      rewrite [main_chain c, Pipeline.Seg.run_eq_chain,
        show (segsR m ρ).map Pipeline.Seg.prog = [
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2,
          StableHlo.seq hostOps9_3,
          StableHlo.seq hostOps9_4 ] from rfl]
      exact .rfl)
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tend m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W21 m ρ c) ∗ Rr c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lr lvr fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W21_of_unwritten m ρ c main_arg0 (by decide)),
     (h c _ (mem_uc main_arg1 (by decide))).trans (W21_of_unwritten m ρ c main_arg1 (by decide)),
     (h c _ (mem_uc main_arg2 (by decide))).trans (W21_of_unwritten m ρ c main_arg2 (by decide)),
     (h c _ (mem_uc main_arg3 (by decide))).trans (W21_of_unwritten m ρ c main_arg3 (by decide)),
     (h c _ (mem_uc main_arg4 (by decide))).trans (W21_of_unwritten m ρ c main_arg4 (by decide)),
     (h c _ (mem_uc main_arg5 (by decide))).trans (W21_of_unwritten m ρ c main_arg5 (by decide)),
     (h c _ (mem_uc main_arg6 (by decide))).trans (W21_of_unwritten m ρ c main_arg6 (by decide)),
     (h c _ (mem_uc main_arg7 (by decide))).trans (W21_of_unwritten m ρ c main_arg7 (by decide))⟩)
    (run_all m ρ)

end Cert.KernelIdeal.Rg

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SX : Shape := ⟨2, ![16384, 32]⟩
abbrev SL : Shape := ⟨2, ![16384, 16384]⟩

abbrev X : Type := FVec Ideal SX .f32

def alp : ℕ → BitVec 32
  | 0 => 0x3F252108#32 | 1 => 0xBEA02CC6#32 | 2 => 0x3D1E8835#32 | 3 => 0xBB5248C5#32 | 4 => 0x3951A169#32
  | 5 => 0xB7275B35#32 | 6 => 0x34DECF7D#32 | 7 => 0xB27E5B60#32 | 8 => 0x2FFE22F1#32 | _ => 0#32

def ahp : ℕ → BitVec 32
  | 0 => 0x3EBC2042#32 | 1 => 0xBEE04BDC#32 | 2 => 0x3E1A6167#32 | 3 => 0xBD13A544#32 | 4 => 0x3BD7845E#32
  | 5 => 0xBA7DEBF8#32 | 6 => 0x38FA9941#32 | 7 => 0xB754ADD4#32 | 8 => 0x359E47C4#32 | _ => 0#32

abbrev two : BitVec 32 := 0x40000000#32

def mv (L : SL.Idx → EReal) (z : SX.Idx → EReal) : SX.Idx → EReal :=
  fun i => ∑ k : Fin 16384, L (ix2 (i 0) k) * z (ix2 k (i 1))

section
variable (mvf : X → X) (bc : BitVec 32 → X) (tail : X → X → X → X) (x : X)

def T : ℕ → X
  | 0 => x
  | 1 => mvf x
  | (n + 2) => subf (mulf (bc two) (mvf (T (n + 1)))) (T n)

def acc (w : ℕ → BitVec 32) : ℕ → X
  | 0 => addf (mulf (bc (w 0)) x) (mulf (bc (w 1)) (T mvf bc x 1))
  | (n + 1) => addf (acc w n) (mulf (bc (w (n + 2))) (T mvf bc x (n + 2)))

def out : X := tail (acc mvf bc x alp 7) (subf x (acc mvf bc x ahp 7)) x

theorem T_zero : T mvf bc x 0 = x := rfl
theorem T_one : T mvf bc x 1 = mvf x := rfl
theorem T_add_two (n : ℕ) : T mvf bc x (n + 2) = subf (mulf (bc two) (mvf (T mvf bc x (n + 1)))) (T mvf bc x n) := rfl
theorem acc_zero (w : ℕ → BitVec 32) : acc mvf bc x w 0 = addf (mulf (bc (w 0)) x) (mulf (bc (w 1)) (T mvf bc x 1)) := rfl
theorem acc_succ (w : ℕ → BitVec 32) (n : ℕ) :
    acc mvf bc x w (n + 1) = addf (acc mvf bc x w n) (mulf (bc (w (n + 2))) (T mvf bc x (n + 2))) := rfl
end

end Cert.Spec

end
-- ==== Proof.KI.CastValue.lean ====
import proofs.«146843_j38328288150260_1_alg».proof.Proof.KI.Cast
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zeros0 : (![0, 0] : Fin 2 → Nat) = fun _ => 0 := funext fun a => by fin_cases a <;> rfl

theorem idx0 : ∀ t : Fin cfg0.N, win0_0.index t (0 : Fin 2) = win0_1.index t (0 : Fin 2)
    ∧ win0_0.index t (1 : Fin 2) = win0_1.index t (1 : Fin 2)
    ∧ win0_1.index t (0 : Fin 2) = t.val / 8 ∧ win0_1.index t (1 : Fin 2) = t.val % 8 :=
  (by decide +kernel : ∀ t : Fin grid0.N, _)

theorem N0 : cfg0.N = 128 := by decide

theorem flushed0_1 (c : Dev nD) (t : Fin cfg0.N) :
    (dat0 (F := Ideal) V c).flushed 1 t = ((cfg0.win 1).blk t).view.read (Elt Ideal) (V c main_arg1 : S16384x16384.Idx → EReal) := by
  show (cfg0.win 1).cut (grid0.coords t) ((dat0 V c).after 1 t) = _
  rw [after0_1]
  unfold out0_1
  rw [View.canon_unit_zero zeros0]
  simp only [View.ld_unit_zero (S := S1024x2048) zeros0]
  obtain ⟨e0, e1, -, -⟩ := idx0 t
  funext j
  show (V c main_arg1 : S16384x16384.Idx → EReal) (((cfg0.win 0).blk t).view.emb j)
    = (V c main_arg1 : S16384x16384.Idx → EReal) (((cfg0.win 1).blk t).view.emb j)
  refine congrArg (V c main_arg1 : S16384x16384.Idx → EReal) (funext fun a => Fin.ext ?_)
  match a with
  | ⟨0, _⟩ => show win0_0.index t (0 : Fin 2) * 1024 + 1 * (j 0).val = win0_1.index t (0 : Fin 2) * 1024 + 1 * (j 0).val; rw [e0]
  | ⟨1, _⟩ => show win0_0.index t (1 : Fin 2) * 2048 + 1 * (j 1).val = win0_1.index t (1 : Fin 2) * 2048 + 1 * (j 1).val; rw [e1]

theorem mem_blk0_1 (t : Fin cfg0.N) (i : S16384x16384.Idx) :
    i ∈ ((cfg0.win 1).blk t).view.set ↔ ∀ a : Fin 2, win0_1.index t a * S1024x2048.size a ≤ (i a).val
      ∧ (i a).val < win0_1.index t a * S1024x2048.size a + S1024x2048.size a := by
  show i ∈ ((View.whole main_v0).slice (win0_1.rect t)).set ↔ _
  rw [View.set_slice_whole, Rect.mem_set_unit]
  exact Iff.rfl

theorem cover0_1arr (i : S16384x16384.Idx) :
    ∃ t : Fin cfg0.N, (cfg0.win 1).flush t = true ∧ i ∈ ((cfg0.win 1).blk t).view.set := by
  have h0 : (i 0).val < 16384 := (i 0).isLt
  have h1 : (i 1).val < 16384 := (i 1).isLt
  have hN : cfg0.N = 128 := N0
  have ht : (i 0).val / 1024 * 8 + (i 1).val / 2048 < cfg0.N := by rw [hN]; omega
  obtain ⟨-, -, q0, q1⟩ := idx0 ⟨(i 0).val / 1024 * 8 + (i 1).val / 2048, ht⟩
  have q0' : win0_1.index ⟨(i 0).val / 1024 * 8 + (i 1).val / 2048, ht⟩ (0 : Fin 2) = ((i 0).val / 1024 * 8 + (i 1).val / 2048) / 8 := q0
  have q1' : win0_1.index ⟨(i 0).val / 1024 * 8 + (i 1).val / 2048, ht⟩ (1 : Fin 2) = ((i 0).val / 1024 * 8 + (i 1).val / 2048) % 8 := q1
  refine ⟨⟨(i 0).val / 1024 * 8 + (i 1).val / 2048, ht⟩, flush0_1 _, ?_⟩
  rw [mem_blk0_1]
  intro a
  match a with
  | ⟨0, _⟩ =>
    show win0_1.index ⟨(i 0).val / 1024 * 8 + (i 1).val / 2048, ht⟩ (0 : Fin 2) * 1024 ≤ (i 0).val
      ∧ (i 0).val < win0_1.index ⟨(i 0).val / 1024 * 8 + (i 1).val / 2048, ht⟩ (0 : Fin 2) * 1024 + 1024
    rw [q0']; omega
  | ⟨1, _⟩ =>
    show win0_1.index ⟨(i 0).val / 1024 * 8 + (i 1).val / 2048, ht⟩ (1 : Fin 2) * 2048 ≤ (i 1).val
      ∧ (i 1).val < win0_1.index ⟨(i 0).val / 1024 * 8 + (i 1).val / 2048, ht⟩ (1 : Fin 2) * 2048 + 2048
    rw [q1']; omega

theorem arr0 (c : Dev nD) : (dat0 (F := Ideal) V c).arrAt 1 cfg0.N = V c main_arg1 :=
  (dat0 V c).arrAt_eq_of_cover 1 _ (fun t _ => flushed0_1 V c t) cover0_1arr

end Cert.KernelIdeal.Rg

end
-- ==== Proof.LibAffineRows.lean ====
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.KI.MatValue.lean ====
import proofs.«146843_j38328288150260_1_alg».proof.Proof.KI.Mats
import proofs.«146843_j38328288150260_1_alg».proof.Proof.Spec
import proofs.«146843_j38328288150260_1_alg».proof.Proof.LibAffineRows
import Idealize.ShloMosaic.Lib.Pipeline.Value
import Idealize.ShloMosaic.Lib.ValueIdx
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

theorem plainMv : Cert.Lib.PlainDot dot_S512x16384_S16384x32_S512x32_1_0_0_1_n_n where
  rank := by decide
  size := by decide
  l0 := fun i q => by simp [DotDims.lhsIdx, dot_S512x16384_S16384x32_S512x32_1_0_0_1_n_n]; rfl
  l1 := fun i q => by simp [DotDims.lhsIdx, dot_S512x16384_S16384x32_S512x32_1_0_0_1_n_n]; rfl
  r0 := fun i q => by simp [DotDims.rhsIdx, dot_S512x16384_S16384x32_S512x32_1_0_0_1_n_n]; rfl
  r1 := fun i q => by simp [DotDims.rhsIdx, dot_S512x16384_S16384x32_S512x32_1_0_0_1_n_n]; rfl

/-- Any payload that is the product into a zero accumulator: at (r, q), the sum over k of block(r, k) · operand(k, q);
    narrowing the operand is the identity over the extended reals. -/
theorem pay_apply (pay : Vec Ideal S16384x32 .f32 → Vec Ideal S512x16384 .bf16 → FVec Ideal S512x32 .f32)
    (hpay : ∀ v0 v2, pay v0 v2 = matmul (φ₁ := .bf16) dot_S512x16384_S16384x32_S512x32_1_0_0_1_n_n none v2 (truncf .bf16 v0 bitsLt_bf16_f32) (constant S512x32 .f32 0x00000000#32))
    (v0 : Vec Ideal S16384x32 .f32) (v2 : Vec Ideal S512x16384 .bf16) (r : Fin 512) (q : Fin 32) :
    pay v0 v2 (ix2 r q) = ∑ k : Fin 16384, v2 (ix2 r k) * v0 (ix2 k q) := by
  rw [hpay]
  simp only [matmul]
  rw [Ideal.matmul_constant_zero_apply]
  exact plainMv.sum_eq (fun i => v2 i) (fun i => v0 i) r q

/-- Blocks of 512 rows, block `t` at rows 512·t …, tile a 16384×32 array: row `r` lies in block `r / 512`. -/
theorem rows_cover {n : ℕ} (hn : n = 32) (idx : Fin n → Fin 2 → ℕ) (hidx : ∀ t, idx t (0 : Fin 2) = t.val ∧ idx t (1 : Fin 2) = 0)
    (i : S16384x32.Idx) :
    ∃ t : Fin n, ∀ a : Fin 2, idx t a * S512x32.size a ≤ (i a).val ∧ (i a).val < idx t a * S512x32.size a + S512x32.size a := by
  subst hn
  have h0 : (i 0).val < 16384 := (i 0).isLt
  have h1 : (i 1).val < 32 := (i 1).isLt
  have ht : (i 0).val / 512 < 32 := by omega
  obtain ⟨q0, q1⟩ := hidx ⟨(i 0).val / 512, ht⟩
  have q0' : idx ⟨(i 0).val / 512, ht⟩ (0 : Fin 2) = (i 0).val / 512 := q0
  refine ⟨⟨(i 0).val / 512, ht⟩, fun a => ?_⟩
  match a with
  | ⟨0, _⟩ =>
    show idx ⟨(i 0).val / 512, ht⟩ (0 : Fin 2) * 512 ≤ (i 0).val ∧ (i 0).val < idx ⟨(i 0).val / 512, ht⟩ (0 : Fin 2) * 512 + 512
    rw [q0']; omega
  | ⟨1, _⟩ =>
    show idx ⟨(i 0).val / 512, ht⟩ (1 : Fin 2) * 32 ≤ (i 1).val ∧ (i 1).val < idx ⟨(i 0).val / 512, ht⟩ (1 : Fin 2) * 32 + 32
    rw [q1]; omega

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem emb_0 (t : Fin cfg1.N) (r : Fin 512) (k : Fin 16384) (hr : 512 * t.val + r.val < 16384) :
    ((cfg1.win 0).blk t).view.emb (ix2 r k) = (ix2 ⟨512 * t.val + r.val, hr⟩ k : S16384x16384.Idx) := by
  obtain ⟨e0, e1, -⟩ := idx1 t
  refine funext fun a => Fin.ext ?_
  match a with
  | ⟨0, _⟩ => show win1_0.index t (0 : Fin 2) * 512 + 1 * r.val = 512 * t.val + r.val; rw [e0]; omega
  | ⟨1, _⟩ => show win1_0.index t (1 : Fin 2) * 16384 + 1 * k.val = k.val; rw [e1]; omega

theorem emb_1 (t : Fin cfg1.N) (k : Fin 16384) (q : Fin 32) :
    ((cfg1.win 1).blk t).view.emb (ix2 k q) = (ix2 k q : S16384x32.Idx) := by
  obtain ⟨-, -, e0, e1, -⟩ := idx1 t
  refine funext fun a => Fin.ext ?_
  match a with
  | ⟨0, _⟩ => show win1_1.index t (0 : Fin 2) * 16384 + 1 * k.val = k.val; rw [e0]; omega
  | ⟨1, _⟩ => show win1_1.index t (1 : Fin 2) * 32 + 1 * q.val = q.val; rw [e1]; omega

theorem emb_2 (t : Fin cfg1.N) (r : Fin 512) (q : Fin 32) (hr : 512 * t.val + r.val < 16384) :
    ((cfg1.win 2).blk t).view.emb (ix2 r q) = (ix2 ⟨512 * t.val + r.val, hr⟩ q : S16384x32.Idx) := by
  obtain ⟨-, -, -, -, e0, e1⟩ := idx1 t
  refine funext fun a => Fin.ext ?_
  match a with
  | ⟨0, _⟩ => show win1_2.index t (0 : Fin 2) * 512 + 1 * r.val = 512 * t.val + r.val; rw [e0]; omega
  | ⟨1, _⟩ => show win1_2.index t (1 : Fin 2) * 32 + 1 * q.val = q.val; rw [e1]; omega

theorem read_2 (t : Fin cfg1.N) (G : S16384x32.Idx → EReal) (j : S512x32.Idx) :
    ((cfg1.win 2).blk t).view.read (Elt Ideal) G j = G (((cfg1.win 2).blk t).view.emb j) := rfl

/-- The output block at point `t`, for any product payload and any two arrays: block `t` of the matrix–block product. -/
theorem flushed_gen (pay : Vec Ideal S16384x32 .f32 → Vec Ideal S512x16384 .bf16 → FVec Ideal S512x32 .f32)
    (hpay : ∀ v0 v2, pay v0 v2 = matmul (φ₁ := .bf16) dot_S512x16384_S16384x32_S512x32_1_0_0_1_n_n none v2 (truncf .bf16 v0 bitsLt_bf16_f32) (constant S512x32 .f32 0x00000000#32))
    (A0 : S16384x16384.Idx → EReal) (A1 : S16384x32.Idx → EReal) (t : Fin cfg1.N) :
    (cfg1.win 2).cut (grid1.coords t) (mvOut pay (((cfg1.win 0).blk t).view.read (Elt Ideal) A0) (((cfg1.win 1).blk t).view.read (Elt Ideal) A1))
      = ((cfg1.win 2).blk t).view.read (Elt Ideal) (Cert.Spec.mv A0 A1) := by
  show mvOut pay _ _ = _
  unfold mvOut
  rw [View.canon_unit_zero zeros2]
  simp only [View.ld_unit_zero (S := S512x16384) zeros2, View.ld_unit_zero (S := S16384x32) zeros2]
  funext j
  obtain ⟨r, q, rfl⟩ : ∃ (r : Fin 512) (q : Fin 32), j = ix2 r q := ⟨j 0, j 1, eq_ix2 j⟩
  have hN : cfg1.N = 32 := by decide
  have hr : 512 * t.val + r.val < 16384 := by have := t.isLt; have := r.isLt; omega
  refine Eq.trans ?_ (read_2 t _ (ix2 r q)).symm
  show pay (((cfg1.win 1).blk t).view.read (Elt Ideal) A1) (((cfg1.win 0).blk t).view.read (Elt Ideal) A0) (ix2 r q) = _
  rw [pay_apply _ hpay, emb_2 t r q hr]
  unfold Cert.Spec.mv
  refine Finset.sum_congr rfl fun k _ => ?_
  show A0 (((cfg1.win 0).blk t).view.emb (ix2 r k)) * A1 (((cfg1.win 1).blk t).view.emb (ix2 k q)) = _
  rw [emb_0 t r k hr, emb_1 t k q]

theorem mem_blk (t : Fin cfg1.N) (i : S16384x32.Idx) :
    i ∈ ((cfg1.win 2).blk t).view.set ↔ ∀ a : Fin 2, win1_2.index t a * S512x32.size a ≤ (i a).val
      ∧ (i a).val < win1_2.index t a * S512x32.size a + S512x32.size a := by
  show i ∈ ((View.whole (Pipeline.arrRef spec1 2)).slice (win1_2.rect t)).set ↔ _
  rw [View.set_slice_whole, Rect.mem_set_unit]
  exact Iff.rfl

theorem cover_gen (i : S16384x32.Idx) : ∃ t : Fin cfg1.N, (cfg1.win 2).flush t = true ∧ i ∈ ((cfg1.win 2).blk t).view.set := by
  obtain ⟨t, ht⟩ := rows_cover (by decide : cfg1.N = 32) (fun t => win1_2.index t) (fun t => (idx1 t).2.2.2.2) i
  exact ⟨t, flush1_2 _, (mem_blk t i).mpr ht⟩

/-- After region 1 its output array is the matrix times the operand, entry by entry. -/
theorem arr1 (c : Dev nD) : (dat1 (F := Ideal) V c).arrAt 2 cfg1.N
    = Cert.Spec.mv (V c (Pipeline.arrRef spec1 0)) (V c (Pipeline.arrRef spec1 1)) :=
  (dat1 V c).arrAt_eq_of_cover 2 _
    (fun t _ => flushed_gen k1_pay1 (fun _ _ => by unfold k1_pay1; simp only [shapeCast_self]) _ _ t) cover_gen

/-- After region 2 its output array is the matrix times the operand, entry by entry. -/
theorem arr2 (c : Dev nD) : (dat2 (F := Ideal) V c).arrAt 2 cfg2.N
    = Cert.Spec.mv (V c (Pipeline.arrRef spec2 0)) (V c (Pipeline.arrRef spec2 1)) :=
  (dat2 V c).arrAt_eq_of_cover 2 _
    (fun t _ => flushed_gen k2_pay1 (fun _ _ => by unfold k2_pay1; simp only [shapeCast_self]) _ _ t) cover_gen

/-- After region 3 its output array is the matrix times the operand, entry by entry. -/
theorem arr3 (c : Dev nD) : (dat3 (F := Ideal) V c).arrAt 2 cfg3.N
    = Cert.Spec.mv (V c (Pipeline.arrRef spec3 0)) (V c (Pipeline.arrRef spec3 1)) :=
  (dat3 V c).arrAt_eq_of_cover 2 _
    (fun t _ => flushed_gen k3_pay1 (fun _ _ => by unfold k3_pay1; simp only [shapeCast_self]) _ _ t) cover_gen

/-- After region 4 its output array is the matrix times the operand, entry by entry. -/
theorem arr4 (c : Dev nD) : (dat4 (F := Ideal) V c).arrAt 2 cfg4.N
    = Cert.Spec.mv (V c (Pipeline.arrRef spec4 0)) (V c (Pipeline.arrRef spec4 1)) :=
  (dat4 V c).arrAt_eq_of_cover 2 _
    (fun t _ => flushed_gen k4_pay1 (fun _ _ => by unfold k4_pay1; simp only [shapeCast_self]) _ _ t) cover_gen

/-- After region 5 its output array is the matrix times the operand, entry by entry. -/
theorem arr5 (c : Dev nD) : (dat5 (F := Ideal) V c).arrAt 2 cfg5.N
    = Cert.Spec.mv (V c (Pipeline.arrRef spec5 0)) (V c (Pipeline.arrRef spec5 1)) :=
  (dat5 V c).arrAt_eq_of_cover 2 _
    (fun t _ => flushed_gen k5_pay1 (fun _ _ => by unfold k5_pay1; simp only [shapeCast_self]) _ _ t) cover_gen

/-- After region 6 its output array is the matrix times the operand, entry by entry. -/
theorem arr6 (c : Dev nD) : (dat6 (F := Ideal) V c).arrAt 2 cfg6.N
    = Cert.Spec.mv (V c (Pipeline.arrRef spec6 0)) (V c (Pipeline.arrRef spec6 1)) :=
  (dat6 V c).arrAt_eq_of_cover 2 _
    (fun t _ => flushed_gen k6_pay1 (fun _ _ => by unfold k6_pay1; simp only [shapeCast_self]) _ _ t) cover_gen

/-- After region 7 its output array is the matrix times the operand, entry by entry. -/
theorem arr7 (c : Dev nD) : (dat7 (F := Ideal) V c).arrAt 2 cfg7.N
    = Cert.Spec.mv (V c (Pipeline.arrRef spec7 0)) (V c (Pipeline.arrRef spec7 1)) :=
  (dat7 V c).arrAt_eq_of_cover 2 _
    (fun t _ => flushed_gen k7_pay1 (fun _ _ => by unfold k7_pay1; simp only [shapeCast_self]) _ _ t) cover_gen

/-- After region 8 its output array is the matrix times the operand, entry by entry. -/
theorem arr8 (c : Dev nD) : (dat8 (F := Ideal) V c).arrAt 2 cfg8.N
    = Cert.Spec.mv (V c (Pipeline.arrRef spec8 0)) (V c (Pipeline.arrRef spec8 1)) :=
  (dat8 V c).arrAt_eq_of_cover 2 _
    (fun t _ => flushed_gen k8_pay1 (fun _ _ => by unfold k8_pay1; simp only [shapeCast_self]) _ _ t) cover_gen

end Cert.KernelIdeal.Rg

end
-- ==== Proof.KI.Value.lean ====
import proofs.«146843_j38328288150260_1_alg».proof.Proof.KI.Fold
import proofs.«146843_j38328288150260_1_alg».proof.Proof.Spec
import proofs.«146843_j38328288150260_1_alg».proof.Proof.KI.CastValue
import proofs.«146843_j38328288150260_1_alg».proof.Proof.KI.MatValue

set_option maxRecDepth 16384

noncomputable section

namespace Cert.KernelIdeal.Rg

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

def bcK (w : BitVec 32) : Cert.Spec.X := broadcastInDim S16384x32 ![] bcast_S_S16384x32 (constant (F := Ideal) S_ .f32 w)

def tailK (a2 : FVec Ideal S32x32 .f32) (a3 : FVec Ideal S32 .f32) (a4 : FVec Ideal S32x32 .f32) (a5 : FVec Ideal S32 .f32)
    (a6 : FVec Ideal S96x32 .f32) (a7 : FVec Ideal S32 .f32) (lp hp x : Cert.Spec.X) : Cert.Spec.X :=
  addf
    (Host.dotGeneral (F := Ideal) dot_S16384x96_S96x32_S16384x32_1_0_0_1_n_n none
      (concatenate S16384x96 1
        [⟨S16384x32, maximumf
            (addf (Host.dotGeneral (F := Ideal) dot_S16384x32_S32x32_S16384x32_1_0_0_1_n_n none lp a2)
              (broadcastInDim S16384x32 ![0, 1] bcast_S1x32_S16384x32_0_1 (broadcastInDim S1x32 ![1] bcast_S32_S1x32_1 a3)))
            (broadcastInDim S16384x32 ![] bcast_S_S16384x32 (constant (F := Ideal) S_ .f32 0x00000000#32))⟩,
         ⟨S16384x32, maximumf
            (addf (Host.dotGeneral (F := Ideal) dot_S16384x32_S32x32_S16384x32_1_0_0_1_n_n none hp a4)
              (broadcastInDim S16384x32 ![0, 1] bcast_S1x32_S16384x32_0_1 (broadcastInDim S1x32 ![1] bcast_S32_S1x32_1 a5)))
            (broadcastInDim S16384x32 ![] bcast_S_S16384x32 (constant (F := Ideal) S_ .f32 0x00000000#32))⟩,
         ⟨S16384x32, x⟩]
        concatenates_S16384x32_S16384x32_S16384x32_S16384x96_d1) a6)
    (broadcastInDim S16384x32 ![0, 1] bcast_S1x32_S16384x32_0_1 (broadcastInDim S1x32 ![1] bcast_S32_S1x32_1 a7))

variable (m : (ℓ : Loc nD τ sig) → Buf (Elt Ideal) ℓ) (ρ : Dev nD → PrngReg) (c : Dev nD)

abbrev mvK : Cert.Spec.X → Cert.Spec.X := fun z => Cert.Spec.mv (m ((c : Thread nD τ).loc main_arg1)) z

abbrev xK : Cert.Spec.X := m ((c : Thread nD τ).loc main_arg0)

abbrev TK (n : ℕ) : Cert.Spec.X := Cert.Spec.T (mvK m c) bcK (xK m c) n

abbrev lpK (n : ℕ) : Cert.Spec.X := Cert.Spec.acc (mvK m c) bcK (xK m c) Cert.Spec.alp n

abbrev hpK (n : ℕ) : Cert.Spec.X := Cert.Spec.acc (mvK m c) bcK (xK m c) Cert.Spec.ahp n

abbrev a2K : FVec Ideal S32x32 .f32 := m ((c : Thread nD τ).loc main_arg2)
abbrev a3K : FVec Ideal S32 .f32 := m ((c : Thread nD τ).loc main_arg3)
abbrev a4K : FVec Ideal S32x32 .f32 := m ((c : Thread nD τ).loc main_arg4)
abbrev a5K : FVec Ideal S32 .f32 := m ((c : Thread nD τ).loc main_arg5)
abbrev a6K : FVec Ideal S96x32 .f32 := m ((c : Thread nD τ).loc main_arg6)
abbrev a7K : FVec Ideal S32 .f32 := m ((c : Thread nD τ).loc main_arg7)

abbrev biasK (b : FVec Ideal S32 .f32) : Cert.Spec.X :=
  broadcastInDim S16384x32 ![0, 1] bcast_S1x32_S16384x32_0_1 (broadcastInDim S1x32 ![1] bcast_S32_S1x32_1 b)

abbrev denseK (z : Cert.Spec.X) (w : FVec Ideal S32x32 .f32) (b : FVec Ideal S32 .f32) : Cert.Spec.X :=
  addf (Host.dotGeneral (F := Ideal) dot_S16384x32_S32x32_S16384x32_1_0_0_1_n_n none z w) (biasK b)

abbrev reluK (z : Cert.Spec.X) : Cert.Spec.X :=
  maximumf z (broadcastInDim S16384x32 ![] bcast_S_S16384x32 (constant (F := Ideal) S_ .f32 0x00000000#32))

theorem W1_arr (w : Fin cfg0.W) :
    W1 m ρ c (Proc.devRef .tc (Pipeline.arrRef spec0 w)) = (dat0 (U0 m ρ) c).arrAt w cfg0.N :=
  Pipeline.withArrays_arr spec0 launch0.win.arr_inj c _ _ w
theorem W2_arr (w : Fin cfg1.W) :
    W2 m ρ c (Proc.devRef .tc (Pipeline.arrRef spec1 w)) = (dat1 (U1 m ρ) c).arrAt w cfg1.N :=
  Pipeline.withArrays_arr spec1 launch1.win.arr_inj c _ _ w
theorem W4_arr (w : Fin cfg2.W) :
    W4 m ρ c (Proc.devRef .tc (Pipeline.arrRef spec2 w)) = (dat2 (U3 m ρ) c).arrAt w cfg2.N :=
  Pipeline.withArrays_arr spec2 launch2.win.arr_inj c _ _ w
theorem W6_arr (w : Fin cfg3.W) :
    W6 m ρ c (Proc.devRef .tc (Pipeline.arrRef spec3 w)) = (dat3 (U5 m ρ) c).arrAt w cfg3.N :=
  Pipeline.withArrays_arr spec3 launch3.win.arr_inj c _ _ w
theorem W8_arr (w : Fin cfg4.W) :
    W8 m ρ c (Proc.devRef .tc (Pipeline.arrRef spec4 w)) = (dat4 (U7 m ρ) c).arrAt w cfg4.N :=
  Pipeline.withArrays_arr spec4 launch4.win.arr_inj c _ _ w
theorem W10_arr (w : Fin cfg5.W) :
    W10 m ρ c (Proc.devRef .tc (Pipeline.arrRef spec5 w)) = (dat5 (U9 m ρ) c).arrAt w cfg5.N :=
  Pipeline.withArrays_arr spec5 launch5.win.arr_inj c _ _ w
theorem W12_arr (w : Fin cfg6.W) :
    W12 m ρ c (Proc.devRef .tc (Pipeline.arrRef spec6 w)) = (dat6 (U11 m ρ) c).arrAt w cfg6.N :=
  Pipeline.withArrays_arr spec6 launch6.win.arr_inj c _ _ w
theorem W14_arr (w : Fin cfg7.W) :
    W14 m ρ c (Proc.devRef .tc (Pipeline.arrRef spec7 w)) = (dat7 (U13 m ρ) c).arrAt w cfg7.N :=
  Pipeline.withArrays_arr spec7 launch7.win.arr_inj c _ _ w
theorem W16_arr (w : Fin cfg8.W) :
    W16 m ρ c (Proc.devRef .tc (Pipeline.arrRef spec8 w)) = (dat8 (U15 m ρ) c).arrAt w cfg8.N :=
  Pipeline.withArrays_arr spec8 launch8.win.arr_inj c _ _ w

theorem L1 : W1 m ρ c (Proc.devRef .tc main_v0) = m ((c : Thread nD τ).loc main_arg1) :=
  (W1_arr m ρ c 1).trans (arr0 (U0 m ρ) c)
theorem L3 : W3 m ρ c (Proc.devRef .tc main_v0) = m ((c : Thread nD τ).loc main_arg1) :=
  (W3_keep m ρ c main_v0 (by decide)).trans ((W2_keep m ρ c main_v0 (by decide)).trans (L1 m ρ c))
theorem L5 : W5 m ρ c (Proc.devRef .tc main_v0) = m ((c : Thread nD τ).loc main_arg1) :=
  (W5_keep m ρ c main_v0 (by decide)).trans ((W4_keep m ρ c main_v0 (by decide)).trans (L3 m ρ c))
theorem L7 : W7 m ρ c (Proc.devRef .tc main_v0) = m ((c : Thread nD τ).loc main_arg1) :=
  (W7_keep m ρ c main_v0 (by decide)).trans ((W6_keep m ρ c main_v0 (by decide)).trans (L5 m ρ c))
theorem L9 : W9 m ρ c (Proc.devRef .tc main_v0) = m ((c : Thread nD τ).loc main_arg1) :=
  (W9_keep m ρ c main_v0 (by decide)).trans ((W8_keep m ρ c main_v0 (by decide)).trans (L7 m ρ c))
theorem L11 : W11 m ρ c (Proc.devRef .tc main_v0) = m ((c : Thread nD τ).loc main_arg1) :=
  (W11_keep m ρ c main_v0 (by decide)).trans ((W10_keep m ρ c main_v0 (by decide)).trans (L9 m ρ c))
theorem L13 : W13 m ρ c (Proc.devRef .tc main_v0) = m ((c : Thread nD τ).loc main_arg1) :=
  (W13_keep m ρ c main_v0 (by decide)).trans ((W12_keep m ρ c main_v0 (by decide)).trans (L11 m ρ c))
theorem L15 : W15 m ρ c (Proc.devRef .tc main_v0) = m ((c : Thread nD τ).loc main_arg1) :=
  (W15_keep m ρ c main_v0 (by decide)).trans ((W14_keep m ρ c main_v0 (by decide)).trans (L13 m ρ c))

theorem x0 : W0 m ρ c (Proc.devRef .tc main_arg0) = xK m c := rfl
theorem x1 : W1 m ρ c (Proc.devRef .tc main_arg0) = xK m c := (W1_keep m ρ c main_arg0 (by decide)).trans (x0 m ρ c)
theorem x2 : W2 m ρ c (Proc.devRef .tc main_arg0) = xK m c := (W2_keep m ρ c main_arg0 (by decide)).trans (x1 m ρ c)
theorem x4 : W4 m ρ c (Proc.devRef .tc main_arg0) = xK m c :=
  (W4_keep m ρ c main_arg0 (by decide)).trans ((W3_keep m ρ c main_arg0 (by decide)).trans (x2 m ρ c))

theorem back16 (r : Ref sig .tc) (h9 : r ∉ hostOps9_W) (h91 : r ∉ hostOps9_1_W) (h92 : r ∉ hostOps9_2_W) (h93 : r ∉ hostOps9_3_W)
    (h94 : r ∉ hostOps9_4_W) : W16 m ρ c (Proc.devRef .tc r) = W21 m ρ c (Proc.devRef .tc r) :=
  ((W21_keep m ρ c r h94).trans ((W20_keep m ρ c r h93).trans ((W19_keep m ρ c r h92).trans
    ((W18_keep m ρ c r h91).trans (W17_keep m ρ c r h9))))).symm
theorem back18 (r : Ref sig .tc) (h92 : r ∉ hostOps9_2_W) (h93 : r ∉ hostOps9_3_W) (h94 : r ∉ hostOps9_4_W) :
    W18 m ρ c (Proc.devRef .tc r) = W21 m ρ c (Proc.devRef .tc r) :=
  ((W21_keep m ρ c r h94).trans ((W20_keep m ρ c r h93).trans (W19_keep m ρ c r h92))).symm
theorem back20 (r : Ref sig .tc) (h94 : r ∉ hostOps9_4_W) : W20 m ρ c (Proc.devRef .tc r) = W21 m ρ c (Proc.devRef .tc r) :=
  (W21_keep m ρ c r h94).symm

theorem x16 : W16 m ρ c (Proc.devRef .tc main_arg0) = xK m c :=
  (back16 m ρ c main_arg0 (by decide) (by decide) (by decide) (by decide) (by decide)).trans (W21_of_unwritten m ρ c main_arg0 (by decide))
theorem x20 : W20 m ρ c (Proc.devRef .tc main_arg0) = xK m c := (back20 m ρ c main_arg0 (by decide)).trans (W21_of_unwritten m ρ c main_arg0 (by decide))
theorem a2_16 : W16 m ρ c (Proc.devRef .tc main_arg2) = m ((c : Thread nD τ).loc main_arg2) :=
  (back16 m ρ c main_arg2 (by decide) (by decide) (by decide) (by decide) (by decide)).trans (W21_of_unwritten m ρ c main_arg2 (by decide))
theorem a3_16 : W16 m ρ c (Proc.devRef .tc main_arg3) = m ((c : Thread nD τ).loc main_arg3) :=
  (back16 m ρ c main_arg3 (by decide) (by decide) (by decide) (by decide) (by decide)).trans (W21_of_unwritten m ρ c main_arg3 (by decide))
theorem a4_18 : W18 m ρ c (Proc.devRef .tc main_arg4) = m ((c : Thread nD τ).loc main_arg4) :=
  (back18 m ρ c main_arg4 (by decide) (by decide) (by decide)).trans (W21_of_unwritten m ρ c main_arg4 (by decide))
theorem a5_18 : W18 m ρ c (Proc.devRef .tc main_arg5) = m ((c : Thread nD τ).loc main_arg5) :=
  (back18 m ρ c main_arg5 (by decide) (by decide) (by decide)).trans (W21_of_unwritten m ρ c main_arg5 (by decide))
theorem a6_20 : W20 m ρ c (Proc.devRef .tc main_arg6) = m ((c : Thread nD τ).loc main_arg6) :=
  (back20 m ρ c main_arg6 (by decide)).trans (W21_of_unwritten m ρ c main_arg6 (by decide))
theorem a7_20 : W20 m ρ c (Proc.devRef .tc main_arg7) = m ((c : Thread nD τ).loc main_arg7) :=
  (back20 m ρ c main_arg7 (by decide)).trans (W21_of_unwritten m ρ c main_arg7 (by decide))

theorem t1_2 : W2 m ρ c (Proc.devRef .tc main_v1) = TK m c 1 := by
  refine (W2_arr m ρ c 2).trans ((arr1 (U1 m ρ) c).trans ?_)
  show Cert.Spec.mv (W1 m ρ c (Proc.devRef .tc main_v0)) (W1 m ρ c (Proc.devRef .tc main_arg0)) = _
  exact congrArg₂ Cert.Spec.mv (L1 m ρ c) (x1 m ρ c)
theorem t1_3 : W3 m ρ c (Proc.devRef .tc main_v1) = TK m c 1 := (W3_keep m ρ c main_v1 (by decide)).trans (t1_2 m ρ c)
theorem t1_6 : W6 m ρ c (Proc.devRef .tc main_v1) = TK m c 1 :=
  (W6_keep m ρ c main_v1 (by decide)).trans ((W5_keep m ρ c main_v1 (by decide)).trans
    ((W4_keep m ρ c main_v1 (by decide)).trans (t1_3 m ρ c)))
theorem lp0_3 : W3 m ρ c (Proc.devRef .tc main_v6) = lpK m c 0 := by
  show StableHlo.after hostOps2 (W2 m ρ c) (Proc.devRef .tc main_v6) = _
  after_results
  rw [x2, t1_2]
  rfl
theorem hp0_3 : W3 m ρ c (Proc.devRef .tc main_v11) = hpK m c 0 := by
  show StableHlo.after hostOps2 (W2 m ρ c) (Proc.devRef .tc main_v11) = _
  after_results
  rw [x2, t1_2]
  rfl
theorem lp0_4 : W4 m ρ c (Proc.devRef .tc main_v6) = lpK m c 0 := (W4_keep m ρ c main_v6 (by decide)).trans (lp0_3 m ρ c)
theorem hp0_4 : W4 m ρ c (Proc.devRef .tc main_v11) = hpK m c 0 := (W4_keep m ρ c main_v11 (by decide)).trans (hp0_3 m ρ c)

theorem m1_4 : W4 m ρ c (Proc.devRef .tc main_v12) = mvK m c (TK m c 1) := by
  refine (W4_arr m ρ c 2).trans ((arr2 (U3 m ρ) c).trans ?_)
  show Cert.Spec.mv (W3 m ρ c (Proc.devRef .tc main_v0)) (W3 m ρ c (Proc.devRef .tc main_v1)) = _
  exact congrArg₂ Cert.Spec.mv (L3 m ρ c) (t1_3 m ρ c)
theorem t2_5 : W5 m ρ c (Proc.devRef .tc main_v15) = TK m c 2 := by
  show StableHlo.after hostOps3 (W4 m ρ c) (Proc.devRef .tc main_v15) = _
  after_results
  rw [m1_4, x4]
  rfl
theorem lp1_5 : W5 m ρ c (Proc.devRef .tc main_v18) = lpK m c 1 := by
  show StableHlo.after hostOps3 (W4 m ρ c) (Proc.devRef .tc main_v18) = _
  after_results
  rw [lp0_4, m1_4, x4]
  rfl
theorem hp1_5 : W5 m ρ c (Proc.devRef .tc main_v21) = hpK m c 1 := by
  show StableHlo.after hostOps3 (W4 m ρ c) (Proc.devRef .tc main_v21) = _
  after_results
  rw [hp0_4, m1_4, x4]
  rfl
theorem t2_8 : W8 m ρ c (Proc.devRef .tc main_v15) = TK m c 2 :=
  (W8_keep m ρ c main_v15 (by decide)).trans ((W7_keep m ρ c main_v15 (by decide)).trans
    ((W6_keep m ρ c main_v15 (by decide)).trans (t2_5 m ρ c)))
theorem lp1_6 : W6 m ρ c (Proc.devRef .tc main_v18) = lpK m c 1 := (W6_keep m ρ c main_v18 (by decide)).trans (lp1_5 m ρ c)
theorem hp1_6 : W6 m ρ c (Proc.devRef .tc main_v21) = hpK m c 1 := (W6_keep m ρ c main_v21 (by decide)).trans (hp1_5 m ρ c)

theorem m2_6 : W6 m ρ c (Proc.devRef .tc main_v22) = mvK m c (TK m c 2) := by
  refine (W6_arr m ρ c 2).trans ((arr3 (U5 m ρ) c).trans ?_)
  show Cert.Spec.mv (W5 m ρ c (Proc.devRef .tc main_v0)) (W5 m ρ c (Proc.devRef .tc main_v15)) = _
  exact congrArg₂ Cert.Spec.mv (L5 m ρ c) (t2_5 m ρ c)
theorem t3_7 : W7 m ρ c (Proc.devRef .tc main_v25) = TK m c 3 := by
  show StableHlo.after hostOps4 (W6 m ρ c) (Proc.devRef .tc main_v25) = _
  after_results
  rw [m2_6, t1_6]
  rfl
theorem lp2_7 : W7 m ρ c (Proc.devRef .tc main_v28) = lpK m c 2 := by
  show StableHlo.after hostOps4 (W6 m ρ c) (Proc.devRef .tc main_v28) = _
  after_results
  rw [lp1_6, m2_6, t1_6]
  rfl
theorem hp2_7 : W7 m ρ c (Proc.devRef .tc main_v31) = hpK m c 2 := by
  show StableHlo.after hostOps4 (W6 m ρ c) (Proc.devRef .tc main_v31) = _
  after_results
  rw [hp1_6, m2_6, t1_6]
  rfl
theorem t3_10 : W10 m ρ c (Proc.devRef .tc main_v25) = TK m c 3 :=
  (W10_keep m ρ c main_v25 (by decide)).trans ((W9_keep m ρ c main_v25 (by decide)).trans
    ((W8_keep m ρ c main_v25 (by decide)).trans (t3_7 m ρ c)))
theorem lp2_8 : W8 m ρ c (Proc.devRef .tc main_v28) = lpK m c 2 := (W8_keep m ρ c main_v28 (by decide)).trans (lp2_7 m ρ c)
theorem hp2_8 : W8 m ρ c (Proc.devRef .tc main_v31) = hpK m c 2 := (W8_keep m ρ c main_v31 (by decide)).trans (hp2_7 m ρ c)

theorem m3_8 : W8 m ρ c (Proc.devRef .tc main_v32) = mvK m c (TK m c 3) := by
  refine (W8_arr m ρ c 2).trans ((arr4 (U7 m ρ) c).trans ?_)
  show Cert.Spec.mv (W7 m ρ c (Proc.devRef .tc main_v0)) (W7 m ρ c (Proc.devRef .tc main_v25)) = _
  exact congrArg₂ Cert.Spec.mv (L7 m ρ c) (t3_7 m ρ c)
theorem t4_9 : W9 m ρ c (Proc.devRef .tc main_v35) = TK m c 4 := by
  show StableHlo.after hostOps5 (W8 m ρ c) (Proc.devRef .tc main_v35) = _
  after_results
  rw [m3_8, t2_8]
  rfl
theorem lp3_9 : W9 m ρ c (Proc.devRef .tc main_v38) = lpK m c 3 := by
  show StableHlo.after hostOps5 (W8 m ρ c) (Proc.devRef .tc main_v38) = _
  after_results
  rw [lp2_8, m3_8, t2_8]
  rfl
theorem hp3_9 : W9 m ρ c (Proc.devRef .tc main_v41) = hpK m c 3 := by
  show StableHlo.after hostOps5 (W8 m ρ c) (Proc.devRef .tc main_v41) = _
  after_results
  rw [hp2_8, m3_8, t2_8]
  rfl
theorem t4_12 : W12 m ρ c (Proc.devRef .tc main_v35) = TK m c 4 :=
  (W12_keep m ρ c main_v35 (by decide)).trans ((W11_keep m ρ c main_v35 (by decide)).trans
    ((W10_keep m ρ c main_v35 (by decide)).trans (t4_9 m ρ c)))
theorem lp3_10 : W10 m ρ c (Proc.devRef .tc main_v38) = lpK m c 3 := (W10_keep m ρ c main_v38 (by decide)).trans (lp3_9 m ρ c)
theorem hp3_10 : W10 m ρ c (Proc.devRef .tc main_v41) = hpK m c 3 := (W10_keep m ρ c main_v41 (by decide)).trans (hp3_9 m ρ c)

theorem m4_10 : W10 m ρ c (Proc.devRef .tc main_v42) = mvK m c (TK m c 4) := by
  refine (W10_arr m ρ c 2).trans ((arr5 (U9 m ρ) c).trans ?_)
  show Cert.Spec.mv (W9 m ρ c (Proc.devRef .tc main_v0)) (W9 m ρ c (Proc.devRef .tc main_v35)) = _
  exact congrArg₂ Cert.Spec.mv (L9 m ρ c) (t4_9 m ρ c)
theorem t5_11 : W11 m ρ c (Proc.devRef .tc main_v45) = TK m c 5 := by
  show StableHlo.after hostOps6 (W10 m ρ c) (Proc.devRef .tc main_v45) = _
  after_results
  rw [m4_10, t3_10]
  rfl
theorem lp4_11 : W11 m ρ c (Proc.devRef .tc main_v48) = lpK m c 4 := by
  show StableHlo.after hostOps6 (W10 m ρ c) (Proc.devRef .tc main_v48) = _
  after_results
  rw [lp3_10, m4_10, t3_10]
  rfl
theorem hp4_11 : W11 m ρ c (Proc.devRef .tc main_v51) = hpK m c 4 := by
  show StableHlo.after hostOps6 (W10 m ρ c) (Proc.devRef .tc main_v51) = _
  after_results
  rw [hp3_10, m4_10, t3_10]
  rfl
theorem t5_14 : W14 m ρ c (Proc.devRef .tc main_v45) = TK m c 5 :=
  (W14_keep m ρ c main_v45 (by decide)).trans ((W13_keep m ρ c main_v45 (by decide)).trans
    ((W12_keep m ρ c main_v45 (by decide)).trans (t5_11 m ρ c)))
theorem lp4_12 : W12 m ρ c (Proc.devRef .tc main_v48) = lpK m c 4 := (W12_keep m ρ c main_v48 (by decide)).trans (lp4_11 m ρ c)
theorem hp4_12 : W12 m ρ c (Proc.devRef .tc main_v51) = hpK m c 4 := (W12_keep m ρ c main_v51 (by decide)).trans (hp4_11 m ρ c)

theorem m5_12 : W12 m ρ c (Proc.devRef .tc main_v52) = mvK m c (TK m c 5) := by
  refine (W12_arr m ρ c 2).trans ((arr6 (U11 m ρ) c).trans ?_)
  show Cert.Spec.mv (W11 m ρ c (Proc.devRef .tc main_v0)) (W11 m ρ c (Proc.devRef .tc main_v45)) = _
  exact congrArg₂ Cert.Spec.mv (L11 m ρ c) (t5_11 m ρ c)
theorem t6_13 : W13 m ρ c (Proc.devRef .tc main_v55) = TK m c 6 := by
  show StableHlo.after hostOps7 (W12 m ρ c) (Proc.devRef .tc main_v55) = _
  after_results
  rw [m5_12, t4_12]
  rfl
theorem lp5_13 : W13 m ρ c (Proc.devRef .tc main_v58) = lpK m c 5 := by
  show StableHlo.after hostOps7 (W12 m ρ c) (Proc.devRef .tc main_v58) = _
  after_results
  rw [lp4_12, m5_12, t4_12]
  rfl
theorem hp5_13 : W13 m ρ c (Proc.devRef .tc main_v61) = hpK m c 5 := by
  show StableHlo.after hostOps7 (W12 m ρ c) (Proc.devRef .tc main_v61) = _
  after_results
  rw [hp4_12, m5_12, t4_12]
  rfl
theorem t6_16 : W16 m ρ c (Proc.devRef .tc main_v55) = TK m c 6 :=
  (W16_keep m ρ c main_v55 (by decide)).trans ((W15_keep m ρ c main_v55 (by decide)).trans
    ((W14_keep m ρ c main_v55 (by decide)).trans (t6_13 m ρ c)))
theorem lp5_14 : W14 m ρ c (Proc.devRef .tc main_v58) = lpK m c 5 := (W14_keep m ρ c main_v58 (by decide)).trans (lp5_13 m ρ c)
theorem hp5_14 : W14 m ρ c (Proc.devRef .tc main_v61) = hpK m c 5 := (W14_keep m ρ c main_v61 (by decide)).trans (hp5_13 m ρ c)

theorem m6_14 : W14 m ρ c (Proc.devRef .tc main_v62) = mvK m c (TK m c 6) := by
  refine (W14_arr m ρ c 2).trans ((arr7 (U13 m ρ) c).trans ?_)
  show Cert.Spec.mv (W13 m ρ c (Proc.devRef .tc main_v0)) (W13 m ρ c (Proc.devRef .tc main_v55)) = _
  exact congrArg₂ Cert.Spec.mv (L13 m ρ c) (t6_13 m ρ c)
theorem t7_15 : W15 m ρ c (Proc.devRef .tc main_v65) = TK m c 7 := by
  show StableHlo.after hostOps8 (W14 m ρ c) (Proc.devRef .tc main_v65) = _
  after_results
  rw [m6_14, t5_14]
  rfl
theorem lp6_15 : W15 m ρ c (Proc.devRef .tc main_v68) = lpK m c 6 := by
  show StableHlo.after hostOps8 (W14 m ρ c) (Proc.devRef .tc main_v68) = _
  after_results
  rw [lp5_14, m6_14, t5_14]
  rfl
theorem hp6_15 : W15 m ρ c (Proc.devRef .tc main_v71) = hpK m c 6 := by
  show StableHlo.after hostOps8 (W14 m ρ c) (Proc.devRef .tc main_v71) = _
  after_results
  rw [hp5_14, m6_14, t5_14]
  rfl
theorem lp6_16 : W16 m ρ c (Proc.devRef .tc main_v68) = lpK m c 6 := (W16_keep m ρ c main_v68 (by decide)).trans (lp6_15 m ρ c)
theorem hp6_16 : W16 m ρ c (Proc.devRef .tc main_v71) = hpK m c 6 := (W16_keep m ρ c main_v71 (by decide)).trans (hp6_15 m ρ c)

theorem m7_16 : W16 m ρ c (Proc.devRef .tc main_v72) = mvK m c (TK m c 7) := by
  refine (W16_arr m ρ c 2).trans ((arr8 (U15 m ρ) c).trans ?_)
  show Cert.Spec.mv (W15 m ρ c (Proc.devRef .tc main_v0)) (W15 m ρ c (Proc.devRef .tc main_v65)) = _
  exact congrArg₂ Cert.Spec.mv (L15 m ρ c) (t7_15 m ρ c)

theorem hpc_17 : W17 m ρ c (Proc.devRef .tc main_v82) = subf (xK m c) (hpK m c 7) := by
  show StableHlo.after hostOps9 (W16 m ρ c) (Proc.devRef .tc main_v82) = _
  after_results_simp
  rw [x16, hp6_16, m7_16, t6_16]
  rfl

theorem d1_17 : W17 m ρ c (Proc.devRef .tc main_v86) = denseK (lpK m c 7) (a2K m c) (a3K m c) := by
  show StableHlo.after hostOps9 (W16 m ρ c) (Proc.devRef .tc main_v86) = _
  after_results_simp
  rw [lp6_16, m7_16, t6_16, a2_16, a3_16]
  rfl

theorem relu1_after (V : Valuation τ sig (Elt Ideal)) (p : Cert.Spec.X) (h : V (Proc.devRef .tc main_v86) = p) :
    StableHlo.after hostOps9_1 V (Proc.devRef .tc main_v87) = reluK p := by
  subst h
  after_results
  rfl

theorem dense2_after (V : Valuation τ sig (Elt Ideal)) (hp : Cert.Spec.X) (a4 : FVec Ideal S32x32 .f32) (a5 : FVec Ideal S32 .f32)
    (h : V (Proc.devRef .tc main_v82) = hp) (h4 : V (Proc.devRef .tc main_arg4) = a4) (h5 : V (Proc.devRef .tc main_arg5) = a5) :
    StableHlo.after hostOps9_2 V (Proc.devRef .tc main_v91) = denseK hp a4 a5 := by
  subst h; subst h4; subst h5
  after_results

theorem relu2_after (V : Valuation τ sig (Elt Ideal)) (p : Cert.Spec.X) (h : V (Proc.devRef .tc main_v91) = p) :
    StableHlo.after hostOps9_3 V (Proc.devRef .tc main_v92) = reluK p := by
  subst h
  after_results
  rfl

theorem fuse_after (V : Valuation τ sig (Elt Ideal)) (p1 p2 x : Cert.Spec.X) (a6 : FVec Ideal S96x32 .f32) (a7 : FVec Ideal S32 .f32)
    (h1 : V (Proc.devRef .tc main_v87) = p1) (h2 : V (Proc.devRef .tc main_v92) = p2) (hx : V (Proc.devRef .tc main_arg0) = x)
    (h6 : V (Proc.devRef .tc main_arg6) = a6) (h7 : V (Proc.devRef .tc main_arg7) = a7) :
    StableHlo.after hostOps9_4 V (Proc.devRef .tc main_v97)
      = addf
          (Host.dotGeneral (F := Ideal) dot_S16384x96_S96x32_S16384x32_1_0_0_1_n_n none
            (concatenate S16384x96 1 [⟨S16384x32, p1⟩, ⟨S16384x32, p2⟩, ⟨S16384x32, x⟩]
              concatenates_S16384x32_S16384x32_S16384x32_S16384x96_d1) a6)
          (biasK a7) := by
  subst h1; subst h2; subst hx; subst h6; subst h7
  after_results
  rfl

theorem r1_18 : W18 m ρ c (Proc.devRef .tc main_v87) = reluK (denseK (lpK m c 7) (a2K m c) (a3K m c)) :=
  relu1_after (W17 m ρ c) _ (d1_17 m ρ c)
theorem hpc_18 : W18 m ρ c (Proc.devRef .tc main_v82) = subf (xK m c) (hpK m c 7) :=
  (W18_keep m ρ c main_v82 (by decide)).trans (hpc_17 m ρ c)
theorem d2_19 : W19 m ρ c (Proc.devRef .tc main_v91) = denseK (subf (xK m c) (hpK m c 7)) (a4K m c) (a5K m c) :=
  dense2_after (W18 m ρ c) _ _ _ (hpc_18 m ρ c) (a4_18 m ρ c) (a5_18 m ρ c)
theorem r1_20 : W20 m ρ c (Proc.devRef .tc main_v87) = reluK (denseK (lpK m c 7) (a2K m c) (a3K m c)) :=
  (W20_keep m ρ c main_v87 (by decide)).trans ((W19_keep m ρ c main_v87 (by decide)).trans (r1_18 m ρ c))
theorem r2_20 : W20 m ρ c (Proc.devRef .tc main_v92) = reluK (denseK (subf (xK m c) (hpK m c 7)) (a4K m c) (a5K m c)) :=
  relu2_after (W19 m ρ c) _ (d2_19 m ρ c)

theorem value (m : (ℓ : Loc nD τ sig) → Buf (Elt Ideal) ℓ) (ρ : Dev nD → PrngReg) (c : Dev nD) :
    W21 m ρ c (Proc.devRef .tc main_v97)
      = Cert.Spec.out (fun z => Cert.Spec.mv (m ((c : Thread nD τ).loc main_arg1)) z) bcK
          (tailK (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7)))
          (m ((c : Thread nD τ).loc main_arg0)) :=
  fuse_after (W20 m ρ c) _ _ _ (a6K m c) (a7K m c) (r1_20 m ρ c) (r2_20 m ρ c) (x20 m ρ c) (a6_20 m ρ c) (a7_20 m ρ c)

end Cert.KernelIdeal.Rg

end
-- ==== Proof.Ref.Run.lean ====
import proofs.«146843_j38328288150260_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

abbrev Blk (F : FTy → Type) : Type := (⟨S16384x32, .f32⟩ : BufTy).Contents (Elt F)
abbrev Mat (F : FTy → Type) : Type := (⟨S16384x16384, .f32⟩ : BufTy).Contents (Elt F)
abbrev Tab (F : FTy → Type) : Type := (⟨S9, .f32⟩ : BufTy).Contents (Elt F)
abbrev W32 (F : FTy → Type) : Type := (⟨S32x32, .f32⟩ : BufTy).Contents (Elt F)
abbrev W96 (F : FTy → Type) : Type := (⟨S96x32, .f32⟩ : BufTy).Contents (Elt F)
abbrev Row (F : FTy → Type) : Type := (⟨S32, .f32⟩ : BufTy).Contents (Elt F)
abbrev Sca (F : FTy → Type) : Type := (⟨S_, .f32⟩ : BufTy).Contents (Elt F)
abbrev One (F : FTy → Type) : Type := (⟨S1, .f32⟩ : BufTy).Contents (Elt F)

def mvR (L : Mat F) (z : Blk F) : Blk F :=
  Host.dotGeneral dot_S16384x16384_S16384x32_S16384x32_1_0_0_1_n_n none L z

def tab0 : Tab F := fun i => FloatOps.ofBits .f32 (lit0 (S9.rowMajor i))

def tab1 : Tab F := fun i => FloatOps.ofBits .f32 (lit1 (S9.rowMajor i))

def cf (tbl : Tab F) (k : ℕ) (h : S9.Slices ![k] S1) : Blk F :=
  broadcastInDim S16384x32 ![] bcast_S_S16384x32 (shapeCast S_ (extractStridedSlice S1 ![k] tbl h) shapeCasts_S1_S_)

def twoR : Blk F := broadcastInDim S16384x32 ![] bcast_S_S16384x32 (constant S_ .f32 0x40000000#32)

def chebR (L : Mat F) (t1 t0 : Blk F) : Blk F := subf (mulf twoR (mvR L t1)) t0

def Tn (x : Blk F) (L : Mat F) : ℕ → Blk F
  | 0 => x
  | 1 => mvR L x
  | (n + 2) => chebR L (Tn x L (n + 1)) (Tn x L n)

def cLP : ℕ → Blk F
  | 0 => cf tab0 0 slices_S9_S1_0 | 1 => cf tab0 1 slices_S9_S1_1 | 2 => cf tab0 2 slices_S9_S1_2
  | 3 => cf tab0 3 slices_S9_S1_3 | 4 => cf tab0 4 slices_S9_S1_4 | 5 => cf tab0 5 slices_S9_S1_5
  | 6 => cf tab0 6 slices_S9_S1_6 | 7 => cf tab0 7 slices_S9_S1_7 | 8 => cf tab0 8 slices_S9_S1_8
  | _ => cf tab0 0 slices_S9_S1_0

def cHP : ℕ → Blk F
  | 0 => cf tab1 0 slices_S9_S1_0 | 1 => cf tab1 1 slices_S9_S1_1 | 2 => cf tab1 2 slices_S9_S1_2
  | 3 => cf tab1 3 slices_S9_S1_3 | 4 => cf tab1 4 slices_S9_S1_4 | 5 => cf tab1 5 slices_S9_S1_5
  | 6 => cf tab1 6 slices_S9_S1_6 | 7 => cf tab1 7 slices_S9_S1_7 | 8 => cf tab1 8 slices_S9_S1_8
  | _ => cf tab1 0 slices_S9_S1_0

def accn (c t : ℕ → Blk F) : ℕ → Blk F
  | 0 => addf (mulf (c 0) (t 0)) (mulf (c 1) (t 1))
  | (n + 1) => addf (accn c t n) (mulf (c (n + 2)) (t (n + 2)))

def zeroS : Blk F := broadcastInDim S16384x32 ![] bcast_S_S16384x32 (constant S_ .f32 0x00000000#32)

def biasS (b : Row F) : Blk F :=
  broadcastInDim S16384x32 ![0, 1] bcast_S1x32_S16384x32_0_1 (broadcastInDim S1x32 ![1] bcast_S32_S1x32_1 b)

def denseS (w : W32 F) (b : Row F) (z : Blk F) : Blk F :=
  addf (Host.dotGeneral dot_S16384x32_S32x32_S16384x32_1_0_0_1_n_n none z w) (biasS b)

def reluS (z : Blk F) : Blk F := maximumf z zeroS

def fuseS (w : W96 F) (b : Row F) (u v x : Blk F) : Blk F :=
  addf (Host.dotGeneral dot_S16384x96_S96x32_S16384x32_1_0_0_1_n_n none
      (concatenate S16384x96 1 [⟨S16384x32, u⟩, ⟨S16384x32, v⟩, ⟨S16384x32, x⟩]
        concatenates_S16384x32_S16384x32_S16384x32_S16384x96_d1) w)
    (biasS b)

def tailS (a2 : W32 F) (a3 : Row F) (a4 : W32 F) (a5 : Row F) (a6 : W96 F) (a7 : Row F) (lp hp x : Blk F) : Blk F :=
  fuseS a6 a7 (reluS (denseS a2 a3 lp)) (reluS (denseS a4 a5 hp)) x

def result (a0 : Blk F) (a1 : Mat F) (a2 : W32 F) (a3 : Row F) (a4 : W32 F) (a5 : Row F) (a6 : W96 F) (a7 : Row F) : Blk F :=
  tailS a2 a3 a4 a5 a6 a7 (accn cLP (Tn a0 a1) 7) (subf a0 (accn cHP (Tn a0 a1) 7)) a0

local macro "writes_in" : tactic =>
  `(tactic| (simp only [List.Forall, nullary_writes, unary_writes, binary_writes, reshape_writes, nary_writes,
      Finset.singleton_subset_iff, List.mem_toFinset]; and_intros <;> exact List.mem_map_of_mem (by decide)))

def W0 : List (HloOp τ sig (Elt F)) :=
  [ StableHlo.nullary main_cst (fun i => FloatOps.ofBits .f32 (lit0 (S9.rowMajor i))),
    StableHlo.nullary main_cst_0 (fun i => FloatOps.ofBits .f32 (lit1 (S9.rowMajor i))),
    StableHlo.binary main_arg1 main_arg0 main_v0 ((fun l r => Host.dotGeneral dot_S16384x16384_S16384x32_S16384x32_1_0_0_1_n_n none l r) : Mat F → Blk F → Blk F),
    StableHlo.unary main_cst main_v1 ((extractStridedSlice S1 ![0] · slices_S9_S1_0) : Tab F → One F),
    StableHlo.reshape main_v1 main_v2 rfl shapeCasts_S1_S_,
    StableHlo.unary main_v2 main_v3 (broadcastInDim S16384x32 ![] bcast_S_S16384x32 : Sca F → Blk F),
    StableHlo.binary main_v3 main_arg0 main_v4 (mulf : Blk F → Blk F → Blk F),
    StableHlo.unary main_cst main_v5 ((extractStridedSlice S1 ![1] · slices_S9_S1_1) : Tab F → One F),
    StableHlo.reshape main_v5 main_v6 rfl shapeCasts_S1_S_,
    StableHlo.unary main_v6 main_v7 (broadcastInDim S16384x32 ![] bcast_S_S16384x32 : Sca F → Blk F),
    StableHlo.binary main_v7 main_v0 main_v8 (mulf : Blk F → Blk F → Blk F),
    StableHlo.binary main_v4 main_v8 main_v9 (addf : Blk F → Blk F → Blk F),
    StableHlo.unary main_cst_0 main_v10 ((extractStridedSlice S1 ![0] · slices_S9_S1_0) : Tab F → One F),
    StableHlo.reshape main_v10 main_v11 rfl shapeCasts_S1_S_,
    StableHlo.unary main_v11 main_v12 (broadcastInDim S16384x32 ![] bcast_S_S16384x32 : Sca F → Blk F),
    StableHlo.binary main_v12 main_arg0 main_v13 (mulf : Blk F → Blk F → Blk F),
    StableHlo.unary main_cst_0 main_v14 ((extractStridedSlice S1 ![1] · slices_S9_S1_1) : Tab F → One F),
    StableHlo.reshape main_v14 main_v15 rfl shapeCasts_S1_S_,
    StableHlo.unary main_v15 main_v16 (broadcastInDim S16384x32 ![] bcast_S_S16384x32 : Sca F → Blk F),
    StableHlo.binary main_v16 main_v0 main_v17 (mulf : Blk F → Blk F → Blk F),
    StableHlo.binary main_v13 main_v17 main_v18 (addf : Blk F → Blk F → Blk F) ]
abbrev W0_W : List (Ref sig .tc) :=
  [main_cst, main_cst_0, main_v0, main_v1, main_v2, main_v3, main_v4, main_v5, main_v6, main_v7, main_v8, main_v9, main_v10,
   main_v11, main_v12, main_v13, main_v14, main_v15, main_v16, main_v17, main_v18]
theorem W0_keep (V : Valuation τ sig (Elt F)) (r : Ref sig .tc) (h : r ∉ W0_W) :
    after W0 V (no_index (Proc.devRef .tc r)) = V (Proc.devRef .tc r) :=
  after_of_writes_sub W0 V (by unfold W0; writes_in) h
theorem W0_cst (V : Valuation τ sig (Elt F)) : after W0 V (no_index (Proc.devRef .tc main_cst)) = tab0 := by
  simp only [W0]; after_results_simp <;> rfl
theorem W0_cst0 (V : Valuation τ sig (Elt F)) : after W0 V (no_index (Proc.devRef .tc main_cst_0)) = tab1 := by
  simp only [W0]; after_results_simp <;> rfl
theorem W0_T (V : Valuation τ sig (Elt F)) :
    after W0 V (no_index (Proc.devRef .tc main_v0)) = mvR (V (Proc.devRef .tc main_arg1)) (V (Proc.devRef .tc main_arg0)) := by
  simp only [W0]; after_results_simp <;> rfl
theorem W0_LP (V : Valuation τ sig (Elt F)) :
    after W0 V (no_index (Proc.devRef .tc main_v9))
      = addf (mulf (cf tab0 0 slices_S9_S1_0) (V (Proc.devRef .tc main_arg0)))
          (mulf (cf tab0 1 slices_S9_S1_1) (mvR (V (Proc.devRef .tc main_arg1)) (V (Proc.devRef .tc main_arg0)))) := by
  simp only [W0]; after_results_simp <;> rfl
theorem W0_HP (V : Valuation τ sig (Elt F)) :
    after W0 V (no_index (Proc.devRef .tc main_v18))
      = addf (mulf (cf tab1 0 slices_S9_S1_0) (V (Proc.devRef .tc main_arg0)))
          (mulf (cf tab1 1 slices_S9_S1_1) (mvR (V (Proc.devRef .tc main_arg1)) (V (Proc.devRef .tc main_arg0)))) := by
  simp only [W0]; after_results_simp <;> rfl

def C2 : List (HloOp τ sig (Elt F)) :=
  [ StableHlo.binary main_arg1 main_v0 main_v19 ((fun l r => Host.dotGeneral dot_S16384x16384_S16384x32_S16384x32_1_0_0_1_n_n none l r) : Mat F → Blk F → Blk F),
    StableHlo.nullary main_cst_1 (constant S_ .f32 0x40000000#32),
    StableHlo.unary main_cst_1 main_v20 (broadcastInDim S16384x32 ![] bcast_S_S16384x32 : Sca F → Blk F),
    StableHlo.binary main_v20 main_v19 main_v21 (mulf : Blk F → Blk F → Blk F),
    StableHlo.binary main_v21 main_arg0 main_v22 (subf : Blk F → Blk F → Blk F),
    StableHlo.unary main_cst main_v23 ((extractStridedSlice S1 ![2] · slices_S9_S1_2) : Tab F → One F),
    StableHlo.reshape main_v23 main_v24 rfl shapeCasts_S1_S_,
    StableHlo.unary main_v24 main_v25 (broadcastInDim S16384x32 ![] bcast_S_S16384x32 : Sca F → Blk F),
    StableHlo.binary main_v25 main_v22 main_v26 (mulf : Blk F → Blk F → Blk F),
    StableHlo.binary main_v9 main_v26 main_v27 (addf : Blk F → Blk F → Blk F),
    StableHlo.unary main_cst_0 main_v28 ((extractStridedSlice S1 ![2] · slices_S9_S1_2) : Tab F → One F),
    StableHlo.reshape main_v28 main_v29 rfl shapeCasts_S1_S_,
    StableHlo.unary main_v29 main_v30 (broadcastInDim S16384x32 ![] bcast_S_S16384x32 : Sca F → Blk F),
    StableHlo.binary main_v30 main_v22 main_v31 (mulf : Blk F → Blk F → Blk F),
    StableHlo.binary main_v18 main_v31 main_v32 (addf : Blk F → Blk F → Blk F) ]
abbrev C2_W : List (Ref sig .tc) :=
  [main_v19, main_cst_1, main_v20, main_v21, main_v22, main_v23, main_v24, main_v25, main_v26, main_v27, main_v28, main_v29,
   main_v30, main_v31, main_v32]
theorem C2_keep (V : Valuation τ sig (Elt F)) (r : Ref sig .tc) (h : r ∉ C2_W) :
    after C2 V (no_index (Proc.devRef .tc r)) = V (Proc.devRef .tc r) :=
  after_of_writes_sub C2 V (by unfold C2; writes_in) h
theorem C2_T (V : Valuation τ sig (Elt F)) :
    after C2 V (no_index (Proc.devRef .tc main_v22))
      = chebR (V (Proc.devRef .tc main_arg1)) (V (Proc.devRef .tc main_v0)) (V (Proc.devRef .tc main_arg0)) := by
  simp only [C2]; after_results_simp <;> rfl
theorem C2_LP (V : Valuation τ sig (Elt F)) :
    after C2 V (no_index (Proc.devRef .tc main_v27))
      = addf (V (Proc.devRef .tc main_v9)) (mulf (cf (V (Proc.devRef .tc main_cst)) 2 slices_S9_S1_2)
          (chebR (V (Proc.devRef .tc main_arg1)) (V (Proc.devRef .tc main_v0)) (V (Proc.devRef .tc main_arg0)))) := by
  simp only [C2]; after_results_simp <;> rfl
theorem C2_HP (V : Valuation τ sig (Elt F)) :
    after C2 V (no_index (Proc.devRef .tc main_v32))
      = addf (V (Proc.devRef .tc main_v18)) (mulf (cf (V (Proc.devRef .tc main_cst_0)) 2 slices_S9_S1_2)
          (chebR (V (Proc.devRef .tc main_arg1)) (V (Proc.devRef .tc main_v0)) (V (Proc.devRef .tc main_arg0)))) := by
  simp only [C2]; after_results_simp <;> rfl

def C3 : List (HloOp τ sig (Elt F)) :=
  [ StableHlo.binary main_arg1 main_v22 main_v33 ((fun l r => Host.dotGeneral dot_S16384x16384_S16384x32_S16384x32_1_0_0_1_n_n none l r) : Mat F → Blk F → Blk F),
    StableHlo.nullary main_cst_2 (constant S_ .f32 0x40000000#32),
    StableHlo.unary main_cst_2 main_v34 (broadcastInDim S16384x32 ![] bcast_S_S16384x32 : Sca F → Blk F),
    StableHlo.binary main_v34 main_v33 main_v35 (mulf : Blk F → Blk F → Blk F),
    StableHlo.binary main_v35 main_v0 main_v36 (subf : Blk F → Blk F → Blk F),
    StableHlo.unary main_cst main_v37 ((extractStridedSlice S1 ![3] · slices_S9_S1_3) : Tab F → One F),
    StableHlo.reshape main_v37 main_v38 rfl shapeCasts_S1_S_,
    StableHlo.unary main_v38 main_v39 (broadcastInDim S16384x32 ![] bcast_S_S16384x32 : Sca F → Blk F),
    StableHlo.binary main_v39 main_v36 main_v40 (mulf : Blk F → Blk F → Blk F),
    StableHlo.binary main_v27 main_v40 main_v41 (addf : Blk F → Blk F → Blk F),
    StableHlo.unary main_cst_0 main_v42 ((extractStridedSlice S1 ![3] · slices_S9_S1_3) : Tab F → One F),
    StableHlo.reshape main_v42 main_v43 rfl shapeCasts_S1_S_,
    StableHlo.unary main_v43 main_v44 (broadcastInDim S16384x32 ![] bcast_S_S16384x32 : Sca F → Blk F),
    StableHlo.binary main_v44 main_v36 main_v45 (mulf : Blk F → Blk F → Blk F),
    StableHlo.binary main_v32 main_v45 main_v46 (addf : Blk F → Blk F → Blk F) ]
abbrev C3_W : List (Ref sig .tc) :=
  [main_v33, main_cst_2, main_v34, main_v35, main_v36, main_v37, main_v38, main_v39, main_v40, main_v41, main_v42, main_v43,
   main_v44, main_v45, main_v46]
theorem C3_keep (V : Valuation τ sig (Elt F)) (r : Ref sig .tc) (h : r ∉ C3_W) :
    after C3 V (no_index (Proc.devRef .tc r)) = V (Proc.devRef .tc r) :=
  after_of_writes_sub C3 V (by unfold C3; writes_in) h
theorem C3_T (V : Valuation τ sig (Elt F)) :
    after C3 V (no_index (Proc.devRef .tc main_v36))
      = chebR (V (Proc.devRef .tc main_arg1)) (V (Proc.devRef .tc main_v22)) (V (Proc.devRef .tc main_v0)) := by
  simp only [C3]; after_results_simp <;> rfl
theorem C3_LP (V : Valuation τ sig (Elt F)) :
    after C3 V (no_index (Proc.devRef .tc main_v41))
      = addf (V (Proc.devRef .tc main_v27)) (mulf (cf (V (Proc.devRef .tc main_cst)) 3 slices_S9_S1_3)
          (chebR (V (Proc.devRef .tc main_arg1)) (V (Proc.devRef .tc main_v22)) (V (Proc.devRef .tc main_v0)))) := by
  simp only [C3]; after_results_simp <;> rfl
theorem C3_HP (V : Valuation τ sig (Elt F)) :
    after C3 V (no_index (Proc.devRef .tc main_v46))
      = addf (V (Proc.devRef .tc main_v32)) (mulf (cf (V (Proc.devRef .tc main_cst_0)) 3 slices_S9_S1_3)
          (chebR (V (Proc.devRef .tc main_arg1)) (V (Proc.devRef .tc main_v22)) (V (Proc.devRef .tc main_v0)))) := by
  simp only [C3]; after_results_simp <;> rfl

def C4 : List (HloOp τ sig (Elt F)) :=
  [ StableHlo.binary main_arg1 main_v36 main_v47 ((fun l r => Host.dotGeneral dot_S16384x16384_S16384x32_S16384x32_1_0_0_1_n_n none l r) : Mat F → Blk F → Blk F),
    StableHlo.nullary main_cst_3 (constant S_ .f32 0x40000000#32),
    StableHlo.unary main_cst_3 main_v48 (broadcastInDim S16384x32 ![] bcast_S_S16384x32 : Sca F → Blk F),
    StableHlo.binary main_v48 main_v47 main_v49 (mulf : Blk F → Blk F → Blk F),
    StableHlo.binary main_v49 main_v22 main_v50 (subf : Blk F → Blk F → Blk F),
    StableHlo.unary main_cst main_v51 ((extractStridedSlice S1 ![4] · slices_S9_S1_4) : Tab F → One F),
    StableHlo.reshape main_v51 main_v52 rfl shapeCasts_S1_S_,
    StableHlo.unary main_v52 main_v53 (broadcastInDim S16384x32 ![] bcast_S_S16384x32 : Sca F → Blk F),
    StableHlo.binary main_v53 main_v50 main_v54 (mulf : Blk F → Blk F → Blk F),
    StableHlo.binary main_v41 main_v54 main_v55 (addf : Blk F → Blk F → Blk F),
    StableHlo.unary main_cst_0 main_v56 ((extractStridedSlice S1 ![4] · slices_S9_S1_4) : Tab F → One F),
    StableHlo.reshape main_v56 main_v57 rfl shapeCasts_S1_S_,
    StableHlo.unary main_v57 main_v58 (broadcastInDim S16384x32 ![] bcast_S_S16384x32 : Sca F → Blk F),
    StableHlo.binary main_v58 main_v50 main_v59 (mulf : Blk F → Blk F → Blk F),
    StableHlo.binary main_v46 main_v59 main_v60 (addf : Blk F → Blk F → Blk F) ]
abbrev C4_W : List (Ref sig .tc) :=
  [main_v47, main_cst_3, main_v48, main_v49, main_v50, main_v51, main_v52, main_v53, main_v54, main_v55, main_v56, main_v57,
   main_v58, main_v59, main_v60]
theorem C4_keep (V : Valuation τ sig (Elt F)) (r : Ref sig .tc) (h : r ∉ C4_W) :
    after C4 V (no_index (Proc.devRef .tc r)) = V (Proc.devRef .tc r) :=
  after_of_writes_sub C4 V (by unfold C4; writes_in) h
theorem C4_T (V : Valuation τ sig (Elt F)) :
    after C4 V (no_index (Proc.devRef .tc main_v50))
      = chebR (V (Proc.devRef .tc main_arg1)) (V (Proc.devRef .tc main_v36)) (V (Proc.devRef .tc main_v22)) := by
  simp only [C4]; after_results_simp <;> rfl
theorem C4_LP (V : Valuation τ sig (Elt F)) :
    after C4 V (no_index (Proc.devRef .tc main_v55))
      = addf (V (Proc.devRef .tc main_v41)) (mulf (cf (V (Proc.devRef .tc main_cst)) 4 slices_S9_S1_4)
          (chebR (V (Proc.devRef .tc main_arg1)) (V (Proc.devRef .tc main_v36)) (V (Proc.devRef .tc main_v22)))) := by
  simp only [C4]; after_results_simp <;> rfl
theorem C4_HP (V : Valuation τ sig (Elt F)) :
    after C4 V (no_index (Proc.devRef .tc main_v60))
      = addf (V (Proc.devRef .tc main_v46)) (mulf (cf (V (Proc.devRef .tc main_cst_0)) 4 slices_S9_S1_4)
          (chebR (V (Proc.devRef .tc main_arg1)) (V (Proc.devRef .tc main_v36)) (V (Proc.devRef .tc main_v22)))) := by
  simp only [C4]; after_results_simp <;> rfl

def C5 : List (HloOp τ sig (Elt F)) :=
  [ StableHlo.binary main_arg1 main_v50 main_v61 ((fun l r => Host.dotGeneral dot_S16384x16384_S16384x32_S16384x32_1_0_0_1_n_n none l r) : Mat F → Blk F → Blk F),
    StableHlo.nullary main_cst_4 (constant S_ .f32 0x40000000#32),
    StableHlo.unary main_cst_4 main_v62 (broadcastInDim S16384x32 ![] bcast_S_S16384x32 : Sca F → Blk F),
    StableHlo.binary main_v62 main_v61 main_v63 (mulf : Blk F → Blk F → Blk F),
    StableHlo.binary main_v63 main_v36 main_v64 (subf : Blk F → Blk F → Blk F),
    StableHlo.unary main_cst main_v65 ((extractStridedSlice S1 ![5] · slices_S9_S1_5) : Tab F → One F),
    StableHlo.reshape main_v65 main_v66 rfl shapeCasts_S1_S_,
    StableHlo.unary main_v66 main_v67 (broadcastInDim S16384x32 ![] bcast_S_S16384x32 : Sca F → Blk F),
    StableHlo.binary main_v67 main_v64 main_v68 (mulf : Blk F → Blk F → Blk F),
    StableHlo.binary main_v55 main_v68 main_v69 (addf : Blk F → Blk F → Blk F),
    StableHlo.unary main_cst_0 main_v70 ((extractStridedSlice S1 ![5] · slices_S9_S1_5) : Tab F → One F),
    StableHlo.reshape main_v70 main_v71 rfl shapeCasts_S1_S_,
    StableHlo.unary main_v71 main_v72 (broadcastInDim S16384x32 ![] bcast_S_S16384x32 : Sca F → Blk F),
    StableHlo.binary main_v72 main_v64 main_v73 (mulf : Blk F → Blk F → Blk F),
    StableHlo.binary main_v60 main_v73 main_v74 (addf : Blk F → Blk F → Blk F) ]
abbrev C5_W : List (Ref sig .tc) :=
  [main_v61, main_cst_4, main_v62, main_v63, main_v64, main_v65, main_v66, main_v67, main_v68, main_v69, main_v70, main_v71,
   main_v72, main_v73, main_v74]
theorem C5_keep (V : Valuation τ sig (Elt F)) (r : Ref sig .tc) (h : r ∉ C5_W) :
    after C5 V (no_index (Proc.devRef .tc r)) = V (Proc.devRef .tc r) :=
  after_of_writes_sub C5 V (by unfold C5; writes_in) h
theorem C5_T (V : Valuation τ sig (Elt F)) :
    after C5 V (no_index (Proc.devRef .tc main_v64))
      = chebR (V (Proc.devRef .tc main_arg1)) (V (Proc.devRef .tc main_v50)) (V (Proc.devRef .tc main_v36)) := by
  simp only [C5]; after_results_simp <;> rfl
theorem C5_LP (V : Valuation τ sig (Elt F)) :
    after C5 V (no_index (Proc.devRef .tc main_v69))
      = addf (V (Proc.devRef .tc main_v55)) (mulf (cf (V (Proc.devRef .tc main_cst)) 5 slices_S9_S1_5)
          (chebR (V (Proc.devRef .tc main_arg1)) (V (Proc.devRef .tc main_v50)) (V (Proc.devRef .tc main_v36)))) := by
  simp only [C5]; after_results_simp <;> rfl
theorem C5_HP (V : Valuation τ sig (Elt F)) :
    after C5 V (no_index (Proc.devRef .tc main_v74))
      = addf (V (Proc.devRef .tc main_v60)) (mulf (cf (V (Proc.devRef .tc main_cst_0)) 5 slices_S9_S1_5)
          (chebR (V (Proc.devRef .tc main_arg1)) (V (Proc.devRef .tc main_v50)) (V (Proc.devRef .tc main_v36)))) := by
  simp only [C5]; after_results_simp <;> rfl

def C6 : List (HloOp τ sig (Elt F)) :=
  [ StableHlo.binary main_arg1 main_v64 main_v75 ((fun l r => Host.dotGeneral dot_S16384x16384_S16384x32_S16384x32_1_0_0_1_n_n none l r) : Mat F → Blk F → Blk F),
    StableHlo.nullary main_cst_5 (constant S_ .f32 0x40000000#32),
    StableHlo.unary main_cst_5 main_v76 (broadcastInDim S16384x32 ![] bcast_S_S16384x32 : Sca F → Blk F),
    StableHlo.binary main_v76 main_v75 main_v77 (mulf : Blk F → Blk F → Blk F),
    StableHlo.binary main_v77 main_v50 main_v78 (subf : Blk F → Blk F → Blk F),
    StableHlo.unary main_cst main_v79 ((extractStridedSlice S1 ![6] · slices_S9_S1_6) : Tab F → One F),
    StableHlo.reshape main_v79 main_v80 rfl shapeCasts_S1_S_,
    StableHlo.unary main_v80 main_v81 (broadcastInDim S16384x32 ![] bcast_S_S16384x32 : Sca F → Blk F),
    StableHlo.binary main_v81 main_v78 main_v82 (mulf : Blk F → Blk F → Blk F),
    StableHlo.binary main_v69 main_v82 main_v83 (addf : Blk F → Blk F → Blk F),
    StableHlo.unary main_cst_0 main_v84 ((extractStridedSlice S1 ![6] · slices_S9_S1_6) : Tab F → One F),
    StableHlo.reshape main_v84 main_v85 rfl shapeCasts_S1_S_,
    StableHlo.unary main_v85 main_v86 (broadcastInDim S16384x32 ![] bcast_S_S16384x32 : Sca F → Blk F),
    StableHlo.binary main_v86 main_v78 main_v87 (mulf : Blk F → Blk F → Blk F),
    StableHlo.binary main_v74 main_v87 main_v88 (addf : Blk F → Blk F → Blk F) ]
abbrev C6_W : List (Ref sig .tc) :=
  [main_v75, main_cst_5, main_v76, main_v77, main_v78, main_v79, main_v80, main_v81, main_v82, main_v83, main_v84, main_v85,
   main_v86, main_v87, main_v88]
theorem C6_keep (V : Valuation τ sig (Elt F)) (r : Ref sig .tc) (h : r ∉ C6_W) :
    after C6 V (no_index (Proc.devRef .tc r)) = V (Proc.devRef .tc r) :=
  after_of_writes_sub C6 V (by unfold C6; writes_in) h
theorem C6_T (V : Valuation τ sig (Elt F)) :
    after C6 V (no_index (Proc.devRef .tc main_v78))
      = chebR (V (Proc.devRef .tc main_arg1)) (V (Proc.devRef .tc main_v64)) (V (Proc.devRef .tc main_v50)) := by
  simp only [C6]; after_results_simp <;> rfl
theorem C6_LP (V : Valuation τ sig (Elt F)) :
    after C6 V (no_index (Proc.devRef .tc main_v83))
      = addf (V (Proc.devRef .tc main_v69)) (mulf (cf (V (Proc.devRef .tc main_cst)) 6 slices_S9_S1_6)
          (chebR (V (Proc.devRef .tc main_arg1)) (V (Proc.devRef .tc main_v64)) (V (Proc.devRef .tc main_v50)))) := by
  simp only [C6]; after_results_simp <;> rfl
theorem C6_HP (V : Valuation τ sig (Elt F)) :
    after C6 V (no_index (Proc.devRef .tc main_v88))
      = addf (V (Proc.devRef .tc main_v74)) (mulf (cf (V (Proc.devRef .tc main_cst_0)) 6 slices_S9_S1_6)
          (chebR (V (Proc.devRef .tc main_arg1)) (V (Proc.devRef .tc main_v64)) (V (Proc.devRef .tc main_v50)))) := by
  simp only [C6]; after_results_simp <;> rfl

def C7 : List (HloOp τ sig (Elt F)) :=
  [ StableHlo.binary main_arg1 main_v78 main_v89 ((fun l r => Host.dotGeneral dot_S16384x16384_S16384x32_S16384x32_1_0_0_1_n_n none l r) : Mat F → Blk F → Blk F),
    StableHlo.nullary main_cst_6 (constant S_ .f32 0x40000000#32),
    StableHlo.unary main_cst_6 main_v90 (broadcastInDim S16384x32 ![] bcast_S_S16384x32 : Sca F → Blk F),
    StableHlo.binary main_v90 main_v89 main_v91 (mulf : Blk F → Blk F → Blk F),
    StableHlo.binary main_v91 main_v64 main_v92 (subf : Blk F → Blk F → Blk F),
    StableHlo.unary main_cst main_v93 ((extractStridedSlice S1 ![7] · slices_S9_S1_7) : Tab F → One F),
    StableHlo.reshape main_v93 main_v94 rfl shapeCasts_S1_S_,
    StableHlo.unary main_v94 main_v95 (broadcastInDim S16384x32 ![] bcast_S_S16384x32 : Sca F → Blk F),
    StableHlo.binary main_v95 main_v92 main_v96 (mulf : Blk F → Blk F → Blk F),
    StableHlo.binary main_v83 main_v96 main_v97 (addf : Blk F → Blk F → Blk F),
    StableHlo.unary main_cst_0 main_v98 ((extractStridedSlice S1 ![7] · slices_S9_S1_7) : Tab F → One F),
    StableHlo.reshape main_v98 main_v99 rfl shapeCasts_S1_S_,
    StableHlo.unary main_v99 main_v100 (broadcastInDim S16384x32 ![] bcast_S_S16384x32 : Sca F → Blk F),
    StableHlo.binary main_v100 main_v92 main_v101 (mulf : Blk F → Blk F → Blk F),
    StableHlo.binary main_v88 main_v101 main_v102 (addf : Blk F → Blk F → Blk F) ]
abbrev C7_W : List (Ref sig .tc) :=
  [main_v89, main_cst_6, main_v90, main_v91, main_v92, main_v93, main_v94, main_v95, main_v96, main_v97, main_v98, main_v99,
   main_v100, main_v101, main_v102]
theorem C7_keep (V : Valuation τ sig (Elt F)) (r : Ref sig .tc) (h : r ∉ C7_W) :
    after C7 V (no_index (Proc.devRef .tc r)) = V (Proc.devRef .tc r) :=
  after_of_writes_sub C7 V (by unfold C7; writes_in) h
theorem C7_T (V : Valuation τ sig (Elt F)) :
    after C7 V (no_index (Proc.devRef .tc main_v92))
      = chebR (V (Proc.devRef .tc main_arg1)) (V (Proc.devRef .tc main_v78)) (V (Proc.devRef .tc main_v64)) := by
  simp only [C7]; after_results_simp <;> rfl
theorem C7_LP (V : Valuation τ sig (Elt F)) :
    after C7 V (no_index (Proc.devRef .tc main_v97))
      = addf (V (Proc.devRef .tc main_v83)) (mulf (cf (V (Proc.devRef .tc main_cst)) 7 slices_S9_S1_7)
          (chebR (V (Proc.devRef .tc main_arg1)) (V (Proc.devRef .tc main_v78)) (V (Proc.devRef .tc main_v64)))) := by
  simp only [C7]; after_results_simp <;> rfl
theorem C7_HP (V : Valuation τ sig (Elt F)) :
    after C7 V (no_index (Proc.devRef .tc main_v102))
      = addf (V (Proc.devRef .tc main_v88)) (mulf (cf (V (Proc.devRef .tc main_cst_0)) 7 slices_S9_S1_7)
          (chebR (V (Proc.devRef .tc main_arg1)) (V (Proc.devRef .tc main_v78)) (V (Proc.devRef .tc main_v64)))) := by
  simp only [C7]; after_results_simp <;> rfl

def C8 : List (HloOp τ sig (Elt F)) :=
  [ StableHlo.binary main_arg1 main_v92 main_v103 ((fun l r => Host.dotGeneral dot_S16384x16384_S16384x32_S16384x32_1_0_0_1_n_n none l r) : Mat F → Blk F → Blk F),
    StableHlo.nullary main_cst_7 (constant S_ .f32 0x40000000#32),
    StableHlo.unary main_cst_7 main_v104 (broadcastInDim S16384x32 ![] bcast_S_S16384x32 : Sca F → Blk F),
    StableHlo.binary main_v104 main_v103 main_v105 (mulf : Blk F → Blk F → Blk F),
    StableHlo.binary main_v105 main_v78 main_v106 (subf : Blk F → Blk F → Blk F),
    StableHlo.unary main_cst main_v107 ((extractStridedSlice S1 ![8] · slices_S9_S1_8) : Tab F → One F),
    StableHlo.reshape main_v107 main_v108 rfl shapeCasts_S1_S_,
    StableHlo.unary main_v108 main_v109 (broadcastInDim S16384x32 ![] bcast_S_S16384x32 : Sca F → Blk F),
    StableHlo.binary main_v109 main_v106 main_v110 (mulf : Blk F → Blk F → Blk F),
    StableHlo.binary main_v97 main_v110 main_v111 (addf : Blk F → Blk F → Blk F),
    StableHlo.unary main_cst_0 main_v112 ((extractStridedSlice S1 ![8] · slices_S9_S1_8) : Tab F → One F),
    StableHlo.reshape main_v112 main_v113 rfl shapeCasts_S1_S_,
    StableHlo.unary main_v113 main_v114 (broadcastInDim S16384x32 ![] bcast_S_S16384x32 : Sca F → Blk F),
    StableHlo.binary main_v114 main_v106 main_v115 (mulf : Blk F → Blk F → Blk F),
    StableHlo.binary main_v102 main_v115 main_v116 (addf : Blk F → Blk F → Blk F) ]
abbrev C8_W : List (Ref sig .tc) :=
  [main_v103, main_cst_7, main_v104, main_v105, main_v106, main_v107, main_v108, main_v109, main_v110, main_v111, main_v112,
   main_v113, main_v114, main_v115, main_v116]
theorem C8_keep (V : Valuation τ sig (Elt F)) (r : Ref sig .tc) (h : r ∉ C8_W) :
    after C8 V (no_index (Proc.devRef .tc r)) = V (Proc.devRef .tc r) :=
  after_of_writes_sub C8 V (by unfold C8; writes_in) h
theorem C8_T (V : Valuation τ sig (Elt F)) :
    after C8 V (no_index (Proc.devRef .tc main_v106))
      = chebR (V (Proc.devRef .tc main_arg1)) (V (Proc.devRef .tc main_v92)) (V (Proc.devRef .tc main_v78)) := by
  simp only [C8]; after_results_simp <;> rfl
theorem C8_LP (V : Valuation τ sig (Elt F)) :
    after C8 V (no_index (Proc.devRef .tc main_v111))
      = addf (V (Proc.devRef .tc main_v97)) (mulf (cf (V (Proc.devRef .tc main_cst)) 8 slices_S9_S1_8)
          (chebR (V (Proc.devRef .tc main_arg1)) (V (Proc.devRef .tc main_v92)) (V (Proc.devRef .tc main_v78)))) := by
  simp only [C8]; after_results_simp <;> rfl
theorem C8_HP (V : Valuation τ sig (Elt F)) :
    after C8 V (no_index (Proc.devRef .tc main_v116))
      = addf (V (Proc.devRef .tc main_v102)) (mulf (cf (V (Proc.devRef .tc main_cst_0)) 8 slices_S9_S1_8)
          (chebR (V (Proc.devRef .tc main_arg1)) (V (Proc.devRef .tc main_v92)) (V (Proc.devRef .tc main_v78)))) := by
  simp only [C8]; after_results_simp <;> rfl

def Wa : List (HloOp τ sig (Elt F)) :=
  [ StableHlo.binary main_arg0 main_v116 main_v117 (subf : Blk F → Blk F → Blk F),
    StableHlo.binary main_v111 main_arg2 main_v118 ((fun l r => Host.dotGeneral dot_S16384x32_S32x32_S16384x32_1_0_0_1_n_n none l r) : Blk F → W32 F → Blk F),
    StableHlo.unary main_arg3 main_v119 (broadcastInDim S1x32 ![1] bcast_S32_S1x32_1 : Row F → (⟨S1x32, .f32⟩ : BufTy).Contents (Elt F)),
    StableHlo.unary main_v119 main_v120 (broadcastInDim S16384x32 ![0, 1] bcast_S1x32_S16384x32_0_1 : (⟨S1x32, .f32⟩ : BufTy).Contents (Elt F) → Blk F),
    StableHlo.binary main_v118 main_v120 main_v121 (addf : Blk F → Blk F → Blk F),
    StableHlo.TRef.nullary main_call0.cst (constant S_ .f32 0x00000000#32),
    StableHlo.TRef.unary main_call0.cst main_call0.v0 (broadcastInDim S16384x32 ![] bcast_S_S16384x32),
    StableHlo.TRef.binary (StableHlo.TRef.of main_v121 : StableHlo.TRef sig ⟨S16384x32, .f32⟩) main_call0.v0 main_call0.v1 maximumf,
    StableHlo.binary main_v117 main_arg4 main_v123 ((fun l r => Host.dotGeneral dot_S16384x32_S32x32_S16384x32_1_0_0_1_n_n none l r) : Blk F → W32 F → Blk F),
    StableHlo.unary main_arg5 main_v124 (broadcastInDim S1x32 ![1] bcast_S32_S1x32_1 : Row F → (⟨S1x32, .f32⟩ : BufTy).Contents (Elt F)),
    StableHlo.unary main_v124 main_v125 (broadcastInDim S16384x32 ![0, 1] bcast_S1x32_S16384x32_0_1 : (⟨S1x32, .f32⟩ : BufTy).Contents (Elt F) → Blk F),
    StableHlo.binary main_v123 main_v125 main_v126 (addf : Blk F → Blk F → Blk F),
    StableHlo.TRef.nullary main_call1.cst (constant S_ .f32 0x00000000#32),
    StableHlo.TRef.unary main_call1.cst main_call1.v0 (broadcastInDim S16384x32 ![] bcast_S_S16384x32),
    StableHlo.TRef.binary (StableHlo.TRef.of main_v126 : StableHlo.TRef sig ⟨S16384x32, .f32⟩) main_call1.v0 main_call1.v1 maximumf ]
abbrev Wa_W : List (Ref sig .tc) :=
  [main_v117, main_v118, main_v119, main_v120, main_v121, main_call0_cst, main_call0_v0, main_v122, main_v123, main_v124,
   main_v125, main_v126, main_call1_cst, main_call1_v0, main_v127]
theorem Wa_keep (V : Valuation τ sig (Elt F)) (r : Ref sig .tc) (h : r ∉ Wa_W) :
    after Wa V (no_index (Proc.devRef .tc r)) = V (Proc.devRef .tc r) :=
  after_of_writes_sub Wa V (by unfold Wa; writes_in) h
theorem Wa_lo (V : Valuation τ sig (Elt F)) :
    after Wa V (no_index (Proc.devRef .tc main_v122))
      = reluS (denseS (V (Proc.devRef .tc main_arg2)) (V (Proc.devRef .tc main_arg3)) (V (Proc.devRef .tc main_v111))) := by
  simp only [Wa]; after_results_simp <;> rfl
theorem Wa_hi (V : Valuation τ sig (Elt F)) :
    after Wa V (no_index (Proc.devRef .tc main_v127))
      = reluS (denseS (V (Proc.devRef .tc main_arg4)) (V (Proc.devRef .tc main_arg5))
          (subf (V (Proc.devRef .tc main_arg0)) (V (Proc.devRef .tc main_v116)))) := by
  simp only [Wa]; after_results_simp <;> rfl

def Wb : List (HloOp τ sig (Elt F)) :=
  [ StableHlo.nary ![main_v122, main_v127, main_arg0] main_v128 (fun u => concatenate S16384x96 1 [⟨S16384x32, u 0⟩, ⟨S16384x32, u 1⟩, ⟨S16384x32, u 2⟩] concatenates_S16384x32_S16384x32_S16384x32_S16384x96_d1),
    StableHlo.binary main_v128 main_arg6 main_v129 ((fun l r => Host.dotGeneral dot_S16384x96_S96x32_S16384x32_1_0_0_1_n_n none l r) : (⟨S16384x96, .f32⟩ : BufTy).Contents (Elt F) → W96 F → Blk F),
    StableHlo.unary main_arg7 main_v130 (broadcastInDim S1x32 ![1] bcast_S32_S1x32_1 : Row F → (⟨S1x32, .f32⟩ : BufTy).Contents (Elt F)),
    StableHlo.unary main_v130 main_v131 (broadcastInDim S16384x32 ![0, 1] bcast_S1x32_S16384x32_0_1 : (⟨S1x32, .f32⟩ : BufTy).Contents (Elt F) → Blk F),
    StableHlo.binary main_v129 main_v131 main_v132 (addf : Blk F → Blk F → Blk F) ]
abbrev Wb_W : List (Ref sig .tc) := [main_v128, main_v129, main_v130, main_v131, main_v132]
theorem Wb_keep (V : Valuation τ sig (Elt F)) (r : Ref sig .tc) (h : r ∉ Wb_W) :
    after Wb V (no_index (Proc.devRef .tc r)) = V (Proc.devRef .tc r) :=
  after_of_writes_sub Wb V (by unfold Wb; writes_in) h
theorem Wb_out (V : Valuation τ sig (Elt F)) :
    after Wb V (no_index (Proc.devRef .tc main_v132))
      = fuseS (V (Proc.devRef .tc main_arg6)) (V (Proc.devRef .tc main_arg7)) (V (Proc.devRef .tc main_v122))
          (V (Proc.devRef .tc main_v127)) (V (Proc.devRef .tc main_arg0)) := by
  simp only [Wb]; after_results_simp <;> rfl

def ops : List (HloOp τ sig (Elt F)) := W0 ++ (C2 ++ (C3 ++ (C4 ++ (C5 ++ (C6 ++ (C7 ++ (C8 ++ (Wa ++ Wb))))))))

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_ops (V : Valuation τ sig (Elt F)) :
    after ops V
      = after Wb (after Wa (after C8 (after C7 (after C6 (after C5 (after C4 (after C3 (after C2 (after W0 V))))))))) := by
  simp only [ops, after_app]

theorem out_eq (V : Valuation τ sig (Elt F)) :
    after ops V (Proc.devRef .tc main_v132)
      = result (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  rw [after_ops]
  simp (disch := decide) only [Wb_out, Wa_lo, Wa_hi, C8_T, C8_LP, C8_HP, C7_T, C7_LP, C7_HP, C6_T, C6_LP, C6_HP, C5_T, C5_LP,
    C5_HP, C4_T, C4_LP, C4_HP, C3_T, C3_LP, C3_HP, C2_T, C2_LP, C2_HP, W0_cst, W0_cst0, W0_T, W0_LP, W0_HP,
    Wb_keep, Wa_keep, C8_keep, C7_keep, C6_keep, C5_keep, C4_keep, C3_keep, C2_keep, W0_keep]
  rfl

theorem arg_eq (V : Valuation τ sig (Elt F)) (r : Ref sig .tc) (h0 : r ∉ W0_W) (h2 : r ∉ C2_W) (h3 : r ∉ C3_W) (h4 : r ∉ C4_W)
    (h5 : r ∉ C5_W) (h6 : r ∉ C6_W) (h7 : r ∉ C7_W) (h8 : r ∉ C8_W) (ha : r ∉ Wa_W) (hb : r ∉ Wb_W) :
    after ops V (Proc.devRef .tc r) = V (Proc.devRef .tc r) := by
  rw [after_ops, Wb_keep _ r hb, Wa_keep _ r ha, C8_keep _ r h8, C7_keep _ r h7, C6_keep _ r h6, C5_keep _ r h5, C4_keep _ r h4,
    C3_keep _ r h3, C2_keep _ r h2, W0_keep _ r h0]

set_option maxRecDepth 8192 in

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, W0, C2, C3, C4, C5, C6, C7, C8, Wa, Wb, List.forall_append, List.Forall, nullary_bufs_sub, unary_bufs_sub,
    binary_bufs_sub, reshape_bufs_sub, nary_bufs_sub, and_self]

theorem ops_fresh : ∀ op ∈ (ops : List (HloOp τ sig (Elt F))), op.fresh = ∅ :=
  List.forall_iff_forall_mem.mp (by
    simp only [ops, W0, C2, C3, C4, C5, C6, C7, C8, Wa, Wb, List.forall_append, List.Forall]
    and_intros <;> rfl)

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v132)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v132).trans (out_eq _),
      (h c main_arg0).trans (arg_eq _ main_arg0 (by decide) (by decide) (by decide) (by decide) (by decide) (by decide) (by decide)
        (by decide) (by decide) (by decide)),
      (h c main_arg1).trans (arg_eq _ main_arg1 (by decide) (by decide) (by decide) (by decide) (by decide) (by decide) (by decide)
        (by decide) (by decide) (by decide)),
      (h c main_arg2).trans (arg_eq _ main_arg2 (by decide) (by decide) (by decide) (by decide) (by decide) (by decide) (by decide)
        (by decide) (by decide) (by decide)),
      (h c main_arg3).trans (arg_eq _ main_arg3 (by decide) (by decide) (by decide) (by decide) (by decide) (by decide) (by decide)
        (by decide) (by decide) (by decide)),
      (h c main_arg4).trans (arg_eq _ main_arg4 (by decide) (by decide) (by decide) (by decide) (by decide) (by decide) (by decide)
        (by decide) (by decide) (by decide)),
      (h c main_arg5).trans (arg_eq _ main_arg5 (by decide) (by decide) (by decide) (by decide) (by decide) (by decide) (by decide)
        (by decide) (by decide) (by decide)),
      (h c main_arg6).trans (arg_eq _ main_arg6 (by decide) (by decide) (by decide) (by decide) (by decide) (by decide) (by decide)
        (by decide) (by decide) (by decide)),
      (h c main_arg7).trans (arg_eq _ main_arg7 (by decide) (by decide) (by decide) (by decide) (by decide) (by decide) (by decide)
        (by decide) (by decide) (by decide))⟩)
    (run_seq scopedRefs_eq scopedSems_eq defs main (fun _ => ops) main_eq (fun _ => ops_sub) m ρ (fun _ => ops_fresh))

end Cert.ReferenceIdeal.RefRun

end
-- ==== Proof.Ref.Value.lean ====
import proofs.«146843_j38328288150260_1_alg».proof.Proof.Ref.Run
import proofs.«146843_j38328288150260_1_alg».proof.Proof.Spec
import proofs.«146843_j38328288150260_1_alg».proof.Proof.LibAffineRows
import Idealize.ShloMosaic.Lib.Pipeline.Value
import Idealize.ShloMosaic.Lib.ValueIdx

noncomputable section

namespace Cert.ReferenceIdeal.RefValue

open Cert.ReferenceIdeal Idealize.ShloMosaic Idealize.ShloMosaic.ValueIdx
open Cert.ReferenceIdeal.Facts₀

def bcR (w : BitVec 32) : Cert.Spec.X :=
  broadcastInDim S16384x32 ![] bcast_S_S16384x32 (constant (F := Ideal) S_ .f32 w)

def tailR (a2 : FVec Ideal S32x32 .f32) (a3 : FVec Ideal S32 .f32) (a4 : FVec Ideal S32x32 .f32) (a5 : FVec Ideal S32 .f32)
    (a6 : FVec Ideal S96x32 .f32) (a7 : FVec Ideal S32 .f32) (lp hp x : Cert.Spec.X) : Cert.Spec.X :=
  addf
    (Host.dotGeneral dot_S16384x96_S96x32_S16384x32_1_0_0_1_n_n none
      (concatenate S16384x96 1
        [⟨S16384x32, maximumf
            (addf (Host.dotGeneral dot_S16384x32_S32x32_S16384x32_1_0_0_1_n_n none lp a2)
              (broadcastInDim S16384x32 ![0, 1] bcast_S1x32_S16384x32_0_1 (broadcastInDim S1x32 ![1] bcast_S32_S1x32_1 a3)))
            (broadcastInDim S16384x32 ![] bcast_S_S16384x32 (constant S_ .f32 0x00000000#32))⟩,
         ⟨S16384x32, maximumf
            (addf (Host.dotGeneral dot_S16384x32_S32x32_S16384x32_1_0_0_1_n_n none hp a4)
              (broadcastInDim S16384x32 ![0, 1] bcast_S1x32_S16384x32_0_1 (broadcastInDim S1x32 ![1] bcast_S32_S1x32_1 a5)))
            (broadcastInDim S16384x32 ![] bcast_S_S16384x32 (constant S_ .f32 0x00000000#32))⟩,
         ⟨S16384x32, x⟩]
        concatenates_S16384x32_S16384x32_S16384x32_S16384x96_d1)
      a6)
    (broadcastInDim S16384x32 ![0, 1] bcast_S1x32_S16384x32_0_1 (broadcastInDim S1x32 ![1] bcast_S32_S1x32_1 a7))

theorem tailS_eq (a2 : FVec Ideal S32x32 .f32) (a3 : FVec Ideal S32 .f32) (a4 : FVec Ideal S32x32 .f32) (a5 : FVec Ideal S32 .f32)
    (a6 : FVec Ideal S96x32 .f32) (a7 : FVec Ideal S32 .f32) (lp hp x : Cert.Spec.X) :
    RefRun.tailS (F := Ideal) a2 a3 a4 a5 a6 a7 lp hp x = tailR a2 a3 a4 a5 a6 a7 lp hp x := rfl

theorem plainRef : Cert.Lib.PlainDot dot_S16384x16384_S16384x32_S16384x32_1_0_0_1_n_n where
  rank := by decide
  size := by decide
  l0 := fun i q => by simp [DotDims.lhsIdx, dot_S16384x16384_S16384x32_S16384x32_1_0_0_1_n_n]; rfl
  l1 := fun i q => by simp [DotDims.lhsIdx, dot_S16384x16384_S16384x32_S16384x32_1_0_0_1_n_n]; rfl
  r0 := fun i q => by simp [DotDims.rhsIdx, dot_S16384x16384_S16384x32_S16384x32_1_0_0_1_n_n]; rfl
  r1 := fun i q => by simp [DotDims.rhsIdx, dot_S16384x16384_S16384x32_S16384x32_1_0_0_1_n_n]; rfl

theorem mv_eq (a1 : FVec Ideal S16384x16384 .f32) (z : Cert.Spec.X) : RefRun.mvR (F := Ideal) a1 z = Cert.Spec.mv a1 z := by
  funext i
  obtain ⟨r, c, rfl⟩ : ∃ r c, i = ix2 r c := ⟨i 0, i 1, eq_ix2 i⟩
  exact Cert.Lib.dotGeneral_apply plainRef a1 z r c

theorem cf_lit (lit : Fin 9 → BitVec 32) (k : ℕ) (hk : k < 9) (h : S9.Slices ![k] S1) :
    RefRun.cf (F := Ideal) (fun i => FloatOps.ofBits (F := Ideal) .f32 (lit (S9.rowMajor i))) k h = bcR (lit ⟨k, hk⟩) := by
  unfold RefRun.cf bcR
  refine congrArg (broadcastInDim (s := S_) S16384x32 ![] bcast_S_S16384x32) (funext fun j => ?_)
  have e1 : (S_ : Shape).numel = 1 := by decide
  rw [shapeCast_apply _ shapeCasts_S1_S_ j (ix1 (0 : Fin 1)) (by
    rw [Shape.rowMajor_val_one]
    have := (S_.rowMajor j).isLt
    show (0 : ℕ) = _
    omega)]
  rw [extractStridedSlice_apply ![k] _ h (ix1 (0 : Fin 1)) (ix1 (⟨k, hk⟩ : Fin 9)) (fun a => by
    match a with
    | ⟨0, _⟩ => rfl)]
  exact congrArg (fun q => (FloatOps.ofBits .f32 (lit q) : Ideal .f32)) (Fin.ext (Shape.rowMajor_val_one _))

theorem alp_eq : ∀ k (hk : k < 9), lit0 ⟨k, hk⟩ = Cert.Spec.alp k := by decide
theorem ahp_eq : ∀ k (hk : k < 9), lit1 ⟨k, hk⟩ = Cert.Spec.ahp k := by decide

theorem cLP_eq (k : ℕ) (hk : k ≤ 8) : RefRun.cLP (F := Ideal) k = bcR (Cert.Spec.alp k) := by
  rw [← alp_eq k (by omega)]
  interval_cases k
  · exact cf_lit lit0 0 (by decide) slices_S9_S1_0
  · exact cf_lit lit0 1 (by decide) slices_S9_S1_1
  · exact cf_lit lit0 2 (by decide) slices_S9_S1_2
  · exact cf_lit lit0 3 (by decide) slices_S9_S1_3
  · exact cf_lit lit0 4 (by decide) slices_S9_S1_4
  · exact cf_lit lit0 5 (by decide) slices_S9_S1_5
  · exact cf_lit lit0 6 (by decide) slices_S9_S1_6
  · exact cf_lit lit0 7 (by decide) slices_S9_S1_7
  · exact cf_lit lit0 8 (by decide) slices_S9_S1_8

theorem cHP_eq (k : ℕ) (hk : k ≤ 8) : RefRun.cHP (F := Ideal) k = bcR (Cert.Spec.ahp k) := by
  rw [← ahp_eq k (by omega)]
  interval_cases k
  · exact cf_lit lit1 0 (by decide) slices_S9_S1_0
  · exact cf_lit lit1 1 (by decide) slices_S9_S1_1
  · exact cf_lit lit1 2 (by decide) slices_S9_S1_2
  · exact cf_lit lit1 3 (by decide) slices_S9_S1_3
  · exact cf_lit lit1 4 (by decide) slices_S9_S1_4
  · exact cf_lit lit1 5 (by decide) slices_S9_S1_5
  · exact cf_lit lit1 6 (by decide) slices_S9_S1_6
  · exact cf_lit lit1 7 (by decide) slices_S9_S1_7
  · exact cf_lit lit1 8 (by decide) slices_S9_S1_8

theorem Tn_eq (a0 : Cert.Spec.X) (a1 : FVec Ideal S16384x16384 .f32) :
    ∀ n, RefRun.Tn (F := Ideal) a0 a1 n = Cert.Spec.T (fun z => Cert.Spec.mv a1 z) bcR a0 n
  | 0 => rfl
  | 1 => mv_eq a1 a0
  | (n + 2) => by
    rw [Cert.Spec.T_add_two]
    show RefRun.chebR (F := Ideal) a1 (RefRun.Tn (F := Ideal) a0 a1 (n + 1)) (RefRun.Tn (F := Ideal) a0 a1 n) = _
    rw [Tn_eq a0 a1 (n + 1), Tn_eq a0 a1 n]
    unfold RefRun.chebR
    rw [mv_eq]
    rfl

theorem accn_eq (a0 : Cert.Spec.X) (a1 : FVec Ideal S16384x16384 .f32) (c : ℕ → RefRun.Blk Ideal) (w : ℕ → BitVec 32)
    (hc : ∀ k, k ≤ 8 → c k = bcR (w k)) :
    ∀ n, n ≤ 7 → RefRun.accn (F := Ideal) c (RefRun.Tn (F := Ideal) a0 a1) n = Cert.Spec.acc (fun z => Cert.Spec.mv a1 z) bcR a0 w n
  | 0, _ => by
    rw [Cert.Spec.acc_zero, RefRun.accn, hc 0 (by omega), hc 1 (by omega), Tn_eq a0 a1 1]
    rfl
  | (n + 1), h => by
    rw [Cert.Spec.acc_succ, RefRun.accn, accn_eq a0 a1 c w hc n (by omega), hc (n + 2) (by omega), Tn_eq a0 a1 (n + 2)]

theorem result_eq (a0 : Cert.Spec.X) (a1 : FVec Ideal S16384x16384 .f32) (a2 : FVec Ideal S32x32 .f32) (a3 : FVec Ideal S32 .f32)
    (a4 : FVec Ideal S32x32 .f32) (a5 : FVec Ideal S32 .f32) (a6 : FVec Ideal S96x32 .f32) (a7 : FVec Ideal S32 .f32) :
    RefRun.result (F := Ideal) a0 a1 a2 a3 a4 a5 a6 a7
      = Cert.Spec.out (fun z => Cert.Spec.mv a1 z) bcR (tailR a2 a3 a4 a5 a6 a7) a0 := by
  unfold RefRun.result Cert.Spec.out
  rw [accn_eq a0 a1 (RefRun.cLP (F := Ideal)) Cert.Spec.alp cLP_eq 7 (le_refl _), accn_eq a0 a1 (RefRun.cHP (F := Ideal)) Cert.Spec.ahp cHP_eq 7 (le_refl _)]
  rfl

end Cert.ReferenceIdeal.RefValue

end
-- ==== Proof.lean ====
import proofs.«146843_j38328288150260_1_alg».proof.Defs
import proofs.«146843_j38328288150260_1_alg».proof.Proof.Gen.Kernel
import proofs.«146843_j38328288150260_1_alg».proof.Proof.Gen.KernelIdeal
import proofs.«146843_j38328288150260_1_alg».proof.Proof.Gen.ReferenceIdeal
import proofs.«146843_j38328288150260_1_alg».proof.Proof.Gen.Pre_finite_inputs
import proofs.«146843_j38328288150260_1_alg».proof.Proof.K.Run
import proofs.«146843_j38328288150260_1_alg».proof.Proof.KI.Run
import proofs.«146843_j38328288150260_1_alg».proof.Proof.KI.Value
import proofs.«146843_j38328288150260_1_alg».proof.Proof.Ref.Run
import proofs.«146843_j38328288150260_1_alg».proof.Proof.Ref.Value
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Rg.frame (F := Bits) m ρ

theorem frame_ki : Cert.frame_KernelIdeal := fun m ρ _ => Cert.KernelIdeal.Rg.frame (F := Ideal) m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

theorem bc_eq : Cert.KernelIdeal.Rg.bcK = Cert.ReferenceIdeal.RefValue.bcR := rfl

theorem tail_eq (a2 a3 a4 a5 a6 a7) : Cert.KernelIdeal.Rg.tailK a2 a3 a4 a5 a6 a7 = Cert.ReferenceIdeal.RefValue.tailR a2 a3 a4 a5 a6 a7 := rfl

theorem algebraic : Cert.algebraic_KernelIdeal_ReferenceIdeal := by
  intro m ρ m' ρ' _ hagree
  refine ⟨fun c => Cert.Spec.out (fun z => Cert.Spec.mv (m ((c.tc : Thread Cert.KernelIdeal.nD Cert.KernelIdeal.τ).loc Cert.KernelIdeal.main_arg1)) z) Cert.KernelIdeal.Rg.bcK
      (Cert.KernelIdeal.Rg.tailK (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
      (m ((c.tc : Thread Cert.KernelIdeal.nD Cert.KernelIdeal.τ).loc Cert.KernelIdeal.main_arg0)), ?_, ?_⟩
  · refine (θ_run Cert.KernelIdeal.defs _ _).mono (fun r h c => ⟨?_, ?_⟩) (Cert.KernelIdeal.Rg.run_all (F := Ideal) m ρ)
    · exact (h c _ (Cert.KernelIdeal.Rg.mem_uc Cert.KernelIdeal.main_v97 (by decide))).trans (Cert.KernelIdeal.Rg.value m ρ c)
    · exact ⟨(h c _ (Cert.KernelIdeal.Rg.mem_uc Cert.KernelIdeal.main_arg0 (by decide))).trans (Cert.KernelIdeal.Rg.W21_of_unwritten m ρ c Cert.KernelIdeal.main_arg0 (by decide)),
        (h c _ (Cert.KernelIdeal.Rg.mem_uc Cert.KernelIdeal.main_arg1 (by decide))).trans (Cert.KernelIdeal.Rg.W21_of_unwritten m ρ c Cert.KernelIdeal.main_arg1 (by decide)),
        (h c _ (Cert.KernelIdeal.Rg.mem_uc Cert.KernelIdeal.main_arg2 (by decide))).trans (Cert.KernelIdeal.Rg.W21_of_unwritten m ρ c Cert.KernelIdeal.main_arg2 (by decide)),
        (h c _ (Cert.KernelIdeal.Rg.mem_uc Cert.KernelIdeal.main_arg3 (by decide))).trans (Cert.KernelIdeal.Rg.W21_of_unwritten m ρ c Cert.KernelIdeal.main_arg3 (by decide)),
        (h c _ (Cert.KernelIdeal.Rg.mem_uc Cert.KernelIdeal.main_arg4 (by decide))).trans (Cert.KernelIdeal.Rg.W21_of_unwritten m ρ c Cert.KernelIdeal.main_arg4 (by decide)),
        (h c _ (Cert.KernelIdeal.Rg.mem_uc Cert.KernelIdeal.main_arg5 (by decide))).trans (Cert.KernelIdeal.Rg.W21_of_unwritten m ρ c Cert.KernelIdeal.main_arg5 (by decide)),
        (h c _ (Cert.KernelIdeal.Rg.mem_uc Cert.KernelIdeal.main_arg6 (by decide))).trans (Cert.KernelIdeal.Rg.W21_of_unwritten m ρ c Cert.KernelIdeal.main_arg6 (by decide)),
        (h c _ (Cert.KernelIdeal.Rg.mem_uc Cert.KernelIdeal.main_arg7 (by decide))).trans (Cert.KernelIdeal.Rg.W21_of_unwritten m ρ c Cert.KernelIdeal.main_arg7 (by decide))⟩
  · refine (θ_run Cert.ReferenceIdeal.defs _ _).mono (fun r h c => ⟨(h c).1.trans ?_, (h c).2⟩) (Cert.ReferenceIdeal.RefRun.run m' ρ')
    obtain ⟨e0, e1, e2, e3, e4, e5, e6, e7⟩ := hagree c
    rw [Cert.ReferenceIdeal.RefValue.result_eq, e0, e1, e2, e3, e4, e5, e6, e7]
    show Cert.Spec.out _ Cert.ReferenceIdeal.RefValue.bcR (Cert.ReferenceIdeal.RefValue.tailR _ _ _ _ _ _) _
      = Cert.Spec.out _ Cert.KernelIdeal.Rg.bcK (Cert.KernelIdeal.Rg.tailK _ _ _ _ _ _) _
    rw [bc_eq, tail_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
